-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048 : Shape := ⟨2, ![2, 2048]⟩
abbrev S32000x1024 : Shape := ⟨2, ![32000, 1024]⟩
abbrev S2048x1024 : Shape := ⟨2, ![2048, 1024]⟩
abbrev S1024x1024 : Shape := ⟨2, ![1024, 1024]⟩
abbrev S1024x32000 : Shape := ⟨2, ![1024, 32000]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x32000 : S_.BroadcastsInDim S1024x32000 (![] : Fin 0 → Fin S1024x32000.rank)
  reducesTo_S1024x32000_S_d0_1 : S1024x32000.ReducesTo [0, 1] S_

variable [Facts]

def fn_part1 {F : FTy → Type} [FloatOps F] (main_arg6 : FVec F S1024x1024 .f32) (main_arg7 : FVec F S1024x32000 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg6
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x32000 .f32 := Host.absf main_arg7
  let main_cst_8 : FVec F S_ .f32 := constant S_ .f32 0x7F800000#32
  let main_v25 : FVec F S1024x32000 .f32 := broadcastInDim S1024x32000 ![] bcast_S_S1024x32000 main_cst_8
  let main_v26 : IVec S1024x32000 1 := cmpf .olt main_v24 main_v25
  let main_c_9 : IVec S_ 1 := constantI S_ 1 1#1
  let main_v27 : IVec S_ 1 := (fun x v => Host.reduce IntOp.andi x v reducesTo_S1024x32000_S_d0_1 h_S_) main_v26 main_c_9
  let main_v28 : IVec S_ 1 := andi main_v23 main_v27
  main_v28

def fn {F : FTy → Type} [FloatOps F] (main_arg0 : IVec S2x2048 32) (main_arg1 : IVec S2x2048 32) (main_arg2 : FVec F S32000x1024 .f32) (main_arg3 : FVec F S2048x1024 .f32) (main_arg4 : FVec F S1024x1024 .f32) (main_arg5 : FVec F S1024x1024 .f32) (main_arg6 : FVec F S1024x1024 .f32) (main_arg7 : FVec F S1024x32000 .f32) : IVec S_ 1 :=
  let main_v0 : FVec F S32000x1024 .f32 := Host.absf main_arg2
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_v4 : FVec F S2048x1024 .f32 := Host.absf main_arg3
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg5
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg6 main_arg7 main_v13 main_v16
-- ==== Kernel.lean ====
abbrev S2x2048 : Shape := ⟨2, ![2, 2048]⟩
abbrev S32000x1024 : Shape := ⟨2, ![32000, 1024]⟩
abbrev S2048x1024 : Shape := ⟨2, ![2048, 1024]⟩
abbrev S1024x1024 : Shape := ⟨2, ![1024, 1024]⟩
abbrev S1024x32000 : Shape := ⟨2, ![1024, 32000]⟩
abbrev S_ : Shape := ⟨0, ![]⟩
abbrev S2x2048x1 : Shape := ⟨3, ![2, 2048, 1]⟩
abbrev S2x2048x1024 : Shape := ⟨3, ![2, 2048, 1024]⟩
abbrev S1x2048x1024 : Shape := ⟨3, ![1, 2048, 1024]⟩
abbrev S4096x1024 : Shape := ⟨2, ![4096, 1024]⟩
abbrev S1x512x1024 : Shape := ⟨3, ![1, 512, 1024]⟩
abbrev S512x1 : Shape := ⟨2, ![512, 1]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S4096x32000 : Shape := ⟨2, ![4096, 32000]⟩
abbrev S4096x1 : Shape := ⟨2, ![4096, 1]⟩
abbrev S1024x640 : Shape := ⟨2, ![1024, 640]⟩
abbrev S2048x640 : Shape := ⟨2, ![2048, 640]⟩
abbrev S2048x1 : Shape := ⟨2, ![2048, 1]⟩
abbrev S2048 : Shape := ⟨1, ![2048]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 61
  | .vmem => 29
  | .smem => 0
  | _ => 0

abbrev bufTy : (tb : Table) → Fin (tcTables nBuf tb) → BufTy
  | .hbm, ⟨0, _⟩ => ⟨S2x2048, .i32⟩
  | .hbm, ⟨1, _⟩ => ⟨S2x2048, .i32⟩
  | .hbm, ⟨2, _⟩ => ⟨S32000x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x32000, .f32⟩
  | .hbm, ⟨8, _⟩ => ⟨S_, .i32⟩
  | .hbm, ⟨9, _⟩ => ⟨S2x2048, .i32⟩
  | .hbm, ⟨10, _⟩ => ⟨S2x2048, .i1⟩
  | .hbm, ⟨11, _⟩ => ⟨S_, .i32⟩
  | .hbm, ⟨12, _⟩ => ⟨S2x2048, .i32⟩
  | .hbm, ⟨13, _⟩ => ⟨S2x2048, .i32⟩
  | .hbm, ⟨14, _⟩ => ⟨S2x2048, .i32⟩
  | .hbm, ⟨15, _⟩ => ⟨S2x2048x1, .i32⟩
  | .hbm, ⟨16, _⟩ => ⟨S2x2048x1024, .f32⟩
  | .hbm, ⟨17, _⟩ => ⟨S1x2048x1024, .f32⟩
  | .hbm, ⟨18, _⟩ => ⟨S2x2048x1024, .f32⟩
  | .hbm, ⟨19, _⟩ => ⟨S2x2048x1024, .f32⟩
  | .hbm, ⟨20, _⟩ => ⟨S2x2048x1024, .bf16⟩
  | .hbm, ⟨21, _⟩ => ⟨S4096x1024, .bf16⟩
  | .hbm, ⟨22, _⟩ => ⟨S1024x1024, .bf16⟩
  | .hbm, ⟨23, _⟩ => ⟨S1024x1024, .bf16⟩
  | .hbm, ⟨24, _⟩ => ⟨S1024x32000, .bf16⟩
  | .hbm, ⟨25, _⟩ => ⟨S4096x1024, .bf16⟩
  | .hbm, ⟨26, _⟩ => ⟨S4096x1024, .bf16⟩
  | .hbm, ⟨27, _⟩ => ⟨S2x2048x1024, .bf16⟩
  | .hbm, ⟨28, _⟩ => ⟨S2x2048x1024, .bf16⟩
  | .hbm, ⟨29, _⟩ => ⟨S2x2048x1024, .bf16⟩
  | .hbm, ⟨30, _⟩ => ⟨S4096x1024, .bf16⟩
  | .hbm, ⟨31, _⟩ => ⟨S4096x32000, .f32⟩
  | .hbm, ⟨32, _⟩ => ⟨S4096x1, .f32⟩
  | .hbm, ⟨33, _⟩ => ⟨S4096x1, .i32⟩
  | .hbm, ⟨34, _⟩ => ⟨S_, .i32⟩
  | .hbm, ⟨35, _⟩ => ⟨S4096x1, .i32⟩
  | .hbm, ⟨36, _⟩ => ⟨S4096x1, .i1⟩
  | .hbm, ⟨37, _⟩ => ⟨S_, .i32⟩
  | .hbm, ⟨38, _⟩ => ⟨S4096x1, .i32⟩
  | .hbm, ⟨39, _⟩ => ⟨S4096x1, .i32⟩
  | .hbm, ⟨40, _⟩ => ⟨S4096x1, .i32⟩
  | .hbm, ⟨41, _⟩ => ⟨S4096x1x1, .i32⟩
  | .hbm, ⟨42, _⟩ => ⟨S1, .i32⟩
  | .hbm, ⟨43, _⟩ => ⟨S_, .i32⟩
  | .hbm, ⟨44, _⟩ => ⟨S4096x1x1, .i32⟩
  | .hbm, ⟨45, _⟩ => ⟨S4096x1x1, .i1⟩
  | .hbm, ⟨46, _⟩ => ⟨S1x1x1, .i32⟩
  | .hbm, ⟨47, _⟩ => ⟨S4096x1x1, .i32⟩
  | .hbm, ⟨48, _⟩ => ⟨S4096x1x1, .i1⟩
  | .hbm, ⟨49, _⟩ => ⟨S4096x1x1, .i1⟩
  | .hbm, ⟨50, _⟩ => ⟨S_, .i1⟩
  | .hbm, ⟨51, _⟩ => ⟨S4096x1, .i1⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S512x1, .f32⟩
  | .local _ .vmem, ⟨17, _⟩ => ⟨S512x1, .f32⟩
  | .local _ .vmem, ⟨18, _⟩ => ⟨S512x1024, .f32⟩
  | .local _ .vmem, ⟨19, _⟩ => ⟨S2048x1024, .bf16⟩
  | .local _ .vmem, ⟨20, _⟩ => ⟨S2048x1024, .bf16⟩
  | .local _ .vmem, ⟨21, _⟩ => ⟨S1024x640, .bf16⟩
  | .local _ .vmem, ⟨22, _⟩ => ⟨S1024x640, .bf16⟩
  | .local _ .vmem, ⟨23, _⟩ => ⟨S2048x640, .f32⟩
  | .local _ .vmem, ⟨24, _⟩ => ⟨S2048x640, .f32⟩
  | .local _ .vmem, ⟨25, _⟩ => ⟨S2048x1, .f32⟩
  | .local _ .vmem, ⟨26, _⟩ => ⟨S2048x1, .f32⟩
  | .local _ .vmem, ⟨27, _⟩ => ⟨S2048x1, .f32⟩
  | .local _ .vmem, ⟨28, _⟩ => ⟨S2048x1, .f32⟩
  | _, _ => ⟨S2x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v21 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_cst : Ref sig .tc := ⟨.hbm, 53, rfl⟩
abbrev main_call0_v14 : Ref sig .tc := ⟨.hbm, 54, rfl⟩
abbrev main_v22 : Ref sig .tc := ⟨.hbm, 55, rfl⟩
abbrev main_v23 : Ref sig .tc := ⟨.hbm, 56, rfl⟩
abbrev main_cst : Ref sig .tc := ⟨.hbm, 57, rfl⟩
abbrev main_v24 : Ref sig .tc := ⟨.hbm, 58, rfl⟩
abbrev main_cst_1 : Ref sig .tc := ⟨.hbm, 59, rfl⟩
abbrev main_v25 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_scratch0 : Ref sig .tc := ⟨.vmem, 27, rfl⟩
abbrev cc2_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![2, 4, 4], ![false, false, false]⟩

def k1_cond3 (i : grid1.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c511_i32 : BitVec 32 := 511#32
  let v1 : BitVec 32 := Scalar.addi v0 c511_i32
  let c512_i32_0 : BitVec 32 := 512#32
  let v2 : BitVec 32 := Scalar.divsi v1 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c512_i32_0 c0_i32_2
  let v9 : BitVec 32 := Scalar.extui v8
  let c0_i32_3 : BitVec 32 := 0#32
  let v10 : BitVec 1 := Scalar.cmpi .slt c512_i32_0 c0_i32_3
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.minsi arg2 v18
  let c0_i32_5 : BitVec 32 := 0#32
  let c0_i32_6 : BitVec 32 := 0#32
  ![arg0.toNat, v19.toNat, c0_i32_5.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c511_i32 : BitVec 32 := 511#32
  let v1 : BitVec 32 := Scalar.addi v0 c511_i32
  let c512_i32_0 : BitVec 32 := 512#32
  let v2 : BitVec 32 := Scalar.divsi v1 c512_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c512_i32_0 c0_i32_2
  let v9 : BitVec 32 := Scalar.extui v8
  let c0_i32_3 : BitVec 32 := 0#32
  let v10 : BitVec 1 := Scalar.cmpi .slt c512_i32_0 c0_i32_3
  let v11 : BitVec 32 := Scalar.extui v10
  let v12 : BitVec 32 := Scalar.subi v9 v11
  let v13 : BitVec 1 := Scalar.cmpi .ne v7 v12
  let v14 : BitVec 32 := Scalar.remsi v1 c512_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.minsi arg2 v18
  let c0_i32_5 : BitVec 32 := 0#32
  let c0_i32_6 : BitVec 32 := 0#32
  ![arg0.toNat, v19.toNat, c0_i32_5.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![2, 50], ![false, false]⟩

def k2_cond2 (i : grid2.Coords) : BitVec 1 :=
  let arg1 : BitVec 32 := BitVec.ofNat 32 (i 1).val
  let c49_i32 : BitVec 32 := 49#32
  let v30 : BitVec 1 := Scalar.cmpi .eq arg1 c49_i32
  let v31 : BitVec 32 := Scalar.extui v30
  let c0_i32_18 : BitVec 32 := 0#32
  let v32 : BitVec 1 := Scalar.cmpi .ne v31 c0_i32_18
  v32

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x640 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x640 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2048x1024_S1x2048x1024_1_2 : S2048x1024.BroadcastsInDim S1x2048x1024 (![1, 2] : Fin 2 → Fin S1x2048x1024.rank)
  bcast_S1x2048x1024_S2x2048x1024_0_1_2 : S1x2048x1024.BroadcastsInDim S2x2048x1024 (![0, 1, 2] : Fin 3 → Fin S2x2048x1024.rank)
  bitsLt_bf16_f32 : FTy.bits .bf16 < FTy.bits .f32
  shapeCasts_S2x2048x1024_S4096x1024 : S2x2048x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S4096x1024_S2x2048x1024 : S4096x1024.ShapeCasts S2x2048x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x640_S1024x640_0_0 : ∀ a, (![0, 0] : Fin 2 → Nat) a + S1024x640.size a ≤ S1024x640.size a
  h_S1024x640 : 0 < S1024x640.numel
  shapeCasts_S1024x640_S1024x640 : S1024x640.ShapeCasts S1024x640
  inb_S2048x640_S2048x640_0_0 : ∀ a, (![0, 0] : Fin 2 → Nat) a + S2048x640.size a ≤ S2048x640.size a
  h_S2048x640 : 0 < S2048x640.numel
  reduces_S2048x640_S2048 : S2048x640.Reduces [1] S2048
  shapeCasts_S2048_S2048x1 : S2048.ShapeCasts S2048x1
  broadcasts_S2048x1_S2048x640 : S2048x1.Broadcasts S2048x640
  shapeCasts_S2x2048_S4096x1 : S2x2048.ShapeCasts S4096x1
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  reducesTo_S4096x1_S_d0_1 : S4096x1.ReducesTo [0, 1] S_
  gather_S32000x1024_S2x2048x1_S2x2048x1024_2_0_n_n_0_2_11024_wf : GatherDims.WF S32000x1024 S2x2048x1 S2x2048x1024 [2] [0] [] [0] [] 2 ![1, 1024]
  dot_S1024x1024_S1024x1024_S1024x1024_1_0_0_1_n_n_wf : DotDims.WF S1024x1024 S1024x1024 S1024x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  dot_S2048x1024_S1024x640_S2048x640_1_0_0_1_n_n_wf : DotDims.WF S2048x1024 S1024x640 S2048x640 [1] [0] [0] [1] [] []
  gather_S4096x32000_S4096x1x1_S4096x1_n_1_0_0_1_2_11_wf : GatherDims.WF S4096x32000 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x1024.size a
  hwx0_4 : ∀ i : grid0.Coords, EltTy.bits .bf16 = 32 ∨ (Rect.block (s := S4096x1024) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S2x2048x1024.size a
  hwx1_0 : ∀ i : grid1.Coords, EltTy.bits .bf16 = 32 ∨ (Rect.block (s := S2x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S2x2048x1024.size a
  hwx1_1 : ∀ i : grid1.Coords, EltTy.bits .bf16 = 32 ∨ (Rect.block (s := S2x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S2x2048x1024.size a
  hwx1_2 : ∀ i : grid1.Coords, EltTy.bits .bf16 = 32 ∨ (Rect.block (s := S2x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S2x2048x1024.size a
  hwx1_3 : ∀ i : grid1.Coords, EltTy.bits .bf16 = 32 ∨ (Rect.block (s := S2x2048x1024) S1x512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S4096x1024.size a
  hwx2_0 : ∀ i : grid2.Coords, EltTy.bits .bf16 = 32 ∨ (Rect.block (s := S4096x1024) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x640.size a ≤ S1024x32000.size a
  hwx2_1 : ∀ i : grid2.Coords, EltTy.bits .bf16 = 32 ∨ (Rect.block (s := S1024x32000) S1024x640.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x640.size a ≤ S4096x32000.size a
  hwx2_2 : ∀ i : grid2.Coords, EltTy.bits .f32 = 32 ∨ (Rect.block (s := S4096x32000) S2048x640.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S4096x1.size a
  hwx2_3 : ∀ i : grid2.Coords, EltTy.bits .f32 = 32 ∨ (Rect.block (s := S4096x1) S2048x1.size (cc2_transform_3 i) (hinb2_3 i)).WholeWords (EltTy.packing .f32)

variable [Facts₀]

def gather_S32000x1024_S2x2048x1_S2x2048x1024_2_0_n_n_0_2_11024 : GatherDims S32000x1024 S2x2048x1 S2x2048x1024 where
  offsetDims := [2]
  collapsedSliceDims := [0]
  operandBatchingDims := []
  startIndicesBatchingDims := []
  startIndexMap := [0]
  indexVectorDim := 2
  sliceSizes := ![1, 1024]
  wf := gather_S32000x1024_S2x2048x1_S2x2048x1024_2_0_n_n_0_2_11024_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S2048x1024_S1024x640_S2048x640_1_0_0_1_n_n : DotDims S2048x1024 S1024x640 S2048x640 where
  lhsContracting := [1]
  rhsContracting := [0]
  lhsNonContracting := [0]
  rhsNonContracting := [1]
  lhsBatch := []
  rhsBatch := []
  wf := dot_S2048x1024_S1024x640_S2048x640_1_0_0_1_n_n_wf
def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

abbrev win0_0 : Pipeline.Window sig grid0 :=
  Pipeline.Window.ofSpec (Memref.whole main_v11) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v17) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v19) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1024x640.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20_0) S2048x640.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20_1) S2048x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S2x2048 : Shape := ⟨2, ![2, 2048]⟩
abbrev S32000x1024 : Shape := ⟨2, ![32000, 1024]⟩
abbrev S2048x1024 : Shape := ⟨2, ![2048, 1024]⟩
abbrev S1024x1024 : Shape := ⟨2, ![1024, 1024]⟩
abbrev S1024x32000 : Shape := ⟨2, ![1024, 32000]⟩
abbrev S_ : Shape := ⟨0, ![]⟩
abbrev S2x2048x1 : Shape := ⟨3, ![2, 2048, 1]⟩
abbrev S2x2048x1024 : Shape := ⟨3, ![2, 2048, 1024]⟩
abbrev S1x2048x1024 : Shape := ⟨3, ![1, 2048, 1024]⟩
abbrev S2x2048x2048 : Shape := ⟨3, ![2, 2048, 2048]⟩
abbrev S2048x2048 : Shape := ⟨2, ![2048, 2048]⟩
abbrev S2x2048x32000 : Shape := ⟨3, ![2, 2048, 32000]⟩
abbrev S4096x32000 : Shape := ⟨2, ![4096, 32000]⟩
abbrev S4096 : Shape := ⟨1, ![4096]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 104
  | .vmem => 0
  | .smem => 0
  | _ => 0

abbrev bufTy : (tb : Table) → Fin (tcTables nBuf tb) → BufTy
  | .hbm, ⟨0, _⟩ => ⟨S2x2048, .i32⟩
  | .hbm, ⟨1, _⟩ => ⟨S2x2048, .i32⟩
  | .hbm, ⟨2, _⟩ => ⟨S32000x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x32000, .f32⟩
  | .hbm, ⟨8, _⟩ => ⟨S_, .i32⟩
  | .hbm, ⟨9, _⟩ => ⟨S2x2048, .i32⟩
  | .hbm, ⟨10, _⟩ => ⟨S2x2048, .i1⟩
  | .hbm, ⟨11, _⟩ => ⟨S_, .i32⟩
  | .hbm, ⟨12, _⟩ => ⟨S2x2048, .i32⟩
  | .hbm, ⟨13, _⟩ => ⟨S2x2048, .i32⟩
  | .hbm, ⟨14, _⟩ => ⟨S2x2048, .i32⟩
  | .hbm, ⟨15, _⟩ => ⟨S2x2048x1, .i32⟩
  | .hbm, ⟨16, _⟩ => ⟨S2x2048x1024, .f32⟩
  | .hbm, ⟨17, _⟩ => ⟨S1x2048x1024, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x2048, .f32⟩
  | .hbm, ⟨24, _⟩ => ⟨S_, .f32⟩
  | .hbm, ⟨25, _⟩ => ⟨S2x2048x2048, .f32⟩
  | .hbm, ⟨26, _⟩ => ⟨S2x2048x2048, .f32⟩
  | .hbm, ⟨27, _⟩ => ⟨S_, .i1⟩
  | .hbm, ⟨28, _⟩ => ⟨S2048x2048, .i1⟩
  | .hbm, ⟨29, _⟩ => ⟨S2048x2048, .i32⟩
  | .hbm, ⟨30, _⟩ => ⟨S_, .i32⟩
  | .hbm, ⟨31, _⟩ => ⟨S2048x2048, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S_, .i1⟩
  | .hbm, ⟨36, _⟩ => ⟨S2048x2048, .i1⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S2x2048x2048, .i1⟩
  | .hbm, ⟨41, _⟩ => ⟨S2x2048x2048, .f32⟩
  | .hbm, ⟨42, _⟩ => ⟨S2x2048x2048, .f32⟩
  | .hbm, ⟨43, _⟩ => ⟨S_, .f32⟩
  | .hbm, ⟨44, _⟩ => ⟨S2x2048, .f32⟩
  | .hbm, ⟨45, _⟩ => ⟨S_, .f32⟩
  | .hbm, ⟨46, _⟩ => ⟨S2x2048, .f32⟩
  | .hbm, ⟨47, _⟩ => ⟨S2x2048, .f32⟩
  | .hbm, ⟨48, _⟩ => ⟨S2x2048x1, .f32⟩
  | .hbm, ⟨49, _⟩ => ⟨S2x2048x2048, .f32⟩
  | .hbm, ⟨50, _⟩ => ⟨S2x2048x2048, .f32⟩
  | .hbm, ⟨51, _⟩ => ⟨S2x2048x2048, .f32⟩
  | .hbm, ⟨52, _⟩ => ⟨S_, .f32⟩
  | .hbm, ⟨53, _⟩ => ⟨S2x2048, .f32⟩
  | .hbm, ⟨54, _⟩ => ⟨S2x2048x1, .f32⟩
  | .hbm, ⟨55, _⟩ => ⟨S2x2048x2048, .f32⟩
  | .hbm, ⟨56, _⟩ => ⟨S2x2048x2048, .f32⟩
  | .hbm, ⟨57, _⟩ => ⟨S2x2048x1024, .f32⟩
  | .hbm, ⟨58, _⟩ => ⟨S2x2048x32000, .f32⟩
  | .hbm, ⟨59, _⟩ => ⟨S4096x32000, .f32⟩
  | .hbm, ⟨60, _⟩ => ⟨S4096, .i32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x1, .f32⟩
  | .hbm, ⟨67, _⟩ => ⟨S4096x32000, .f32⟩
  | .hbm, ⟨68, _⟩ => ⟨S4096x32000, .f32⟩
  | .hbm, ⟨69, _⟩ => ⟨S4096x32000, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1, .f32⟩
  | .hbm, ⟨74, _⟩ => ⟨S4096x32000, .f32⟩
  | .hbm, ⟨75, _⟩ => ⟨S4096x32000, .f32⟩
  | .hbm, ⟨76, _⟩ => ⟨S4096x1, .i32⟩
  | .hbm, ⟨77, _⟩ => ⟨S_, .i32⟩
  | .hbm, ⟨78, _⟩ => ⟨S4096x1, .i32⟩
  | .hbm, ⟨79, _⟩ => ⟨S4096x1, .i1⟩
  | .hbm, ⟨80, _⟩ => ⟨S_, .i32⟩
  | .hbm, ⟨81, _⟩ => ⟨S4096x1, .i32⟩
  | .hbm, ⟨82, _⟩ => ⟨S4096x1, .i32⟩
  | .hbm, ⟨83, _⟩ => ⟨S4096x1, .i32⟩
  | .hbm, ⟨84, _⟩ => ⟨S4096x1x1, .i32⟩
  | .hbm, ⟨85, _⟩ => ⟨S1, .i32⟩
  | .hbm, ⟨86, _⟩ => ⟨S_, .i32⟩
  | .hbm, ⟨87, _⟩ => ⟨S4096x1x1, .i32⟩
  | .hbm, ⟨88, _⟩ => ⟨S4096x1x1, .i1⟩
  | .hbm, ⟨89, _⟩ => ⟨S1x1x1, .i32⟩
  | .hbm, ⟨90, _⟩ => ⟨S4096x1x1, .i32⟩
  | .hbm, ⟨91, _⟩ => ⟨S4096x1x1, .i1⟩
  | .hbm, ⟨92, _⟩ => ⟨S4096x1x1, .i1⟩
  | .hbm, ⟨93, _⟩ => ⟨S_, .i1⟩
  | .hbm, ⟨94, _⟩ => ⟨S4096x1, .i1⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S2x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_0 : Ref sig .tc := ⟨.hbm, 35, rfl⟩
abbrev main_call0_v5 : Ref sig .tc := ⟨.hbm, 36, rfl⟩
abbrev main_v17 : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_cst_3 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call2_cst : Ref sig .tc := ⟨.hbm, 61, rfl⟩
abbrev main_call2_v0 : Ref sig .tc := ⟨.hbm, 62, rfl⟩
abbrev main_call2_cst_0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_cst_1 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_v34 : Ref sig .tc := ⟨.hbm, 75, rfl⟩
abbrev main_v35 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_cst : Ref sig .tc := ⟨.hbm, 96, rfl⟩
abbrev main_call3_v14 : Ref sig .tc := ⟨.hbm, 97, rfl⟩
abbrev main_v36 : Ref sig .tc := ⟨.hbm, 98, rfl⟩
abbrev main_cst_6 : Ref sig .tc := ⟨.hbm, 99, rfl⟩
abbrev main_v37 : Ref sig .tc := ⟨.hbm, 100, rfl⟩
abbrev main_cst_7 : Ref sig .tc := ⟨.hbm, 101, rfl⟩
abbrev main_v38 : Ref sig .tc := ⟨.hbm, 102, rfl⟩
abbrev main_v39 : Ref sig .tc := ⟨.hbm, 103, rfl⟩

abbrev nD : Nat := 1
abbrev τ : Topo := Topo.v7x

variable {F : FTy → Type} [FloatOps F]

class Facts₀ : Prop where
  bcast_S_S2x2048 : S_.BroadcastsInDim S2x2048 (![] : Fin 0 → Fin S2x2048.rank)
  bcast_S2x2048_S2x2048x1_0_1 : S2x2048.BroadcastsInDim S2x2048x1 (![0, 1] : Fin 2 → Fin S2x2048x1.rank)
  bcast_S2048x1024_S1x2048x1024_1_2 : S2048x1024.BroadcastsInDim S1x2048x1024 (![1, 2] : Fin 2 → Fin S1x2048x1024.rank)
  bcast_S1x2048x1024_S2x2048x1024_0_1_2 : S1x2048x1024.BroadcastsInDim S2x2048x1024 (![0, 1, 2] : Fin 3 → Fin S2x2048x1024.rank)
  bcast_S_S2x2048x2048 : S_.BroadcastsInDim S2x2048x2048 (![] : Fin 0 → Fin S2x2048x2048.rank)
  bcast_S_S2048x2048 : S_.BroadcastsInDim S2048x2048 (![] : Fin 0 → Fin S2048x2048.rank)
  bcast_S2048x2048_S2x2048x2048_1_2 : S2048x2048.BroadcastsInDim S2x2048x2048 (![1, 2] : Fin 2 → Fin S2x2048x2048.rank)
  reducesTo_S2x2048x2048_S2x2048_d2 : S2x2048x2048.ReducesTo [2] S2x2048
  h_S_ : 0 < S_.numel
  bcast_S2x2048x1_S2x2048x2048_0_1_2 : S2x2048x1.BroadcastsInDim S2x2048x2048 (![0, 1, 2] : Fin 3 → Fin S2x2048x2048.rank)
  shapeCasts_S2x2048x32000_S4096x32000 : S2x2048x32000.ShapeCasts S4096x32000
  shapeCasts_S2x2048_S4096 : S2x2048.ShapeCasts S4096
  reducesTo_S4096x32000_S4096_d1 : S4096x32000.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  gather_S32000x1024_S2x2048x1_S2x2048x1024_2_0_n_n_0_2_11024_wf : GatherDims.WF S32000x1024 S2x2048x1 S2x2048x1024 [2] [0] [] [0] [] 2 ![1, 1024]
  dot_S2x2048x1024_S1024x1024_S2x2048x1024_2_0_01_1_n_n_wf : DotDims.WF S2x2048x1024 S1024x1024 S2x2048x1024 [2] [0] [0, 1] [1] [] []
  dot_S2x2048x1024_S2x2048x1024_S2x2048x2048_2_2_1_1_0_0_wf : DotDims.WF S2x2048x1024 S2x2048x1024 S2x2048x2048 [2] [2] [1] [1] [0] [0]
  dot_S2x2048x2048_S2x2048x1024_S2x2048x1024_2_1_1_2_0_0_wf : DotDims.WF S2x2048x2048 S2x2048x1024 S2x2048x1024 [2] [1] [1] [2] [0] [0]
  dot_S2x2048x1024_S1024x32000_S2x2048x32000_2_0_01_1_n_n_wf : DotDims.WF S2x2048x1024 S1024x32000 S2x2048x32000 [2] [0] [0, 1] [1] [] []
  gather_S4096x32000_S4096x1x1_S4096x1_n_1_0_0_1_2_11_wf : GatherDims.WF S4096x32000 S4096x1x1 S4096x1 [] [1] [0] [1] [0] 2 ![1, 1]

variable [Facts₀]

def gather_S32000x1024_S2x2048x1_S2x2048x1024_2_0_n_n_0_2_11024 : GatherDims S32000x1024 S2x2048x1 S2x2048x1024 where
  offsetDims := [2]
  collapsedSliceDims := [0]
  operandBatchingDims := []
  startIndicesBatchingDims := []
  startIndexMap := [0]
  indexVectorDim := 2
  sliceSizes := ![1, 1024]
  wf := gather_S32000x1024_S2x2048x1_S2x2048x1024_2_0_n_n_0_2_11024_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf
def dot_S2x2048x1024_S2x2048x1024_S2x2048x2048_2_2_1_1_0_0 : DotDims S2x2048x1024 S2x2048x1024 S2x2048x2048 where
  lhsContracting := [2]
  rhsContracting := [2]
  lhsNonContracting := [1]
  rhsNonContracting := [1]
  lhsBatch := [0]
  rhsBatch := [0]
  wf := dot_S2x2048x1024_S2x2048x1024_S2x2048x2048_2_2_1_1_0_0_wf
def dot_S2x2048x2048_S2x2048x1024_S2x2048x1024_2_1_1_2_0_0 : DotDims S2x2048x2048 S2x2048x1024 S2x2048x1024 where
  lhsContracting := [2]
  rhsContracting := [1]
  lhsNonContracting := [1]
  rhsNonContracting := [2]
  lhsBatch := [0]
  rhsBatch := [0]
  wf := dot_S2x2048x2048_S2x2048x1024_S2x2048x1024_2_1_1_2_0_0_wf
def dot_S2x2048x1024_S1024x32000_S2x2048x32000_2_0_01_1_n_n : DotDims S2x2048x1024 S1024x32000 S2x2048x32000 where
  lhsContracting := [2]
  rhsContracting := [0]
  lhsNonContracting := [0, 1]
  rhsNonContracting := [1]
  lhsBatch := []
  rhsBatch := []
  wf := dot_S2x2048x1024_S1024x32000_S2x2048x32000_2_0_01_1_n_n_wf
def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.K.Common.lean ====
import proofs.«419445_j27642409517469_3_alg».proof.Proof.Gen.Kernel.Launch
import Idealize.ShloMosaic.Lib.Pipeline.Kit

noncomputable section

namespace Cert.Kernel

open Idealize.ShloMosaic Idealize.ShloMosaic.TcCoe Idealize.SL.Sem

abbrev Entry (F : FTy → Type) : Type :=
  (c : Dev nD) → (b : Ref sig .tc) → Buf (Elt F) ((c : Thread nD τ).loc b)

end Cert.Kernel

end
-- ==== Proof.K.Reg0.lean ====
import proofs.«419445_j27642409517469_3_alg».proof.Proof.Gen.Kernel.Skeleton
import proofs.«419445_j27642409517469_3_alg».proof.Proof.Gen.Kernel.Points
import Idealize.ShloMosaic.Lib.Pipeline.FrameBody
import Idealize.ShloMosaic.Lib.Tactic
import proofs.«419445_j27642409517469_3_alg».proof.Proof.K.Common

noncomputable section

namespace Cert.Kernel.Reg0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

def blk (V : Entry F) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev full : Rect S1024x1024 := Rect.unit (s := S1024x1024) ![0, 0] S1024x1024.size inb_S1024x1024_S1024x1024_0_0

def outK (x wk : Vec F S1024x1024 .bf16) : Vec F S1024x1024 .bf16 :=
  View.canon [⟨full, k0_pay2 (View.ld x full) (View.ld wk full)⟩]

def outQ (x wq : Vec F S1024x1024 .bf16) : Vec F S1024x1024 .bf16 :=
  View.canon [⟨full, k0_pay3 (View.ld x full) (View.ld wq full)⟩]

/-- The two projections: each output is the product of the activations with its weight. -/
theorem run_kernel (c : Dev nD) (E : Set ℕ) (i : grid0.Coords)
    (a1 a2 a3 a4 a5 : Memref sig .tc .vmem S1024x1024 .bf16) (h1 : a1.IsWhole) (h2 : a2.IsWhole) (h3 : a3.IsWhole) (h4 : a4.IsWhole) (h5 : a5.IsWhole)
    (x wk wq y4 y5 : Vec F S1024x1024 .bf16) (K : PUnit → sProp 𝕄) :
    iprop(owns c.tc a1 fullShare x ∗ owns c.tc a2 fullShare wk ∗ owns c.tc a3 fullShare wq
        ∗ owns c.tc a4 fullShare y4 ∗ owns c.tc a5 fullShare y5
        ∗ (iprop(owns c.tc a1 fullShare x ∗ owns c.tc a2 fullShare wk ∗ owns c.tc a3 fullShare wq
            ∗ owns c.tc a4 fullShare (outK x wk) ∗ owns c.tc a5 fullShare (outQ x wq)) -∗ K ⟨⟩))
      ⊢ wp frame (wpE (defs₀ (F := F)) Variants.none c none) E (cc0__proj_kernel i a1 h1 a2 h2 a3 h3 a4 h4 a5 h5) K := by
  simp only [cc0__proj_kernel_eq_skeleton]; unfold cc0__proj_kernel_skel
  unfold owns
  iintro ⟨⟨%f1, %e1, H1⟩, ⟨%f2, %e2, H2⟩, ⟨%f3, %e3, H3⟩, ⟨%f4, -, H4⟩, ⟨%f5, -, H5⟩, Hk⟩
  subst e1 e2 e3
  sl_exec!
  sl_step
  iapply Hk
  isplitl [H1]; rotate_left
  isplitl [H2]; rotate_left
  isplitl [H3]; rotate_left
  isplitl [H4]; rotate_left
  all_goals
    iexists _; isplitr; swap; iassumption
    ipureintro
    first | exact View.read_writes_junk_eq_canon _ _ | rfl

def dat (V : Entry F) (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outK (blk V c 0 t) (blk V c 1 t)
    | ⟨4, _⟩ => outQ (blk V c 0 t) (blk V c 2 t)
  Φ _ := Pipeline.ΦA spec0 c
  q _ := fullShare
  owed _ := 0

theorem dat_A (V : Entry F) (c : Dev nD) (w : Fin cfg0.W) : (dat V c).A w = V c (Pipeline.arrRef spec0 w) := rfl

theorem dat_q (V : Entry F) (c : Dev nD) (w : Fin cfg0.W) : (dat V c).q w = fullShare := rfl

theorem dat_owed (V : Entry F) (c : Dev nD) (t : Fin (cfg0.N + 1)) : (dat V c).owed t = 0 := rfl

theorem dat_recorded (V : Entry F) (c : Dev nD) (t : Fin (cfg0.N + 1)) : (dat V c).recorded t = Set.univ := rfl

theorem after_3 (V : Entry F) (c : Dev nD) (t : Fin cfg0.N) :
    (dat V c).after 3 t = outK (blk V c 0 t) (blk V c 1 t) := by dsimp only [dat]
theorem after_4 (V : Entry F) (c : Dev nD) (t : Fin cfg0.N) :
    (dat V c).after 4 t = outQ (blk V c 0 t) (blk V c 2 t) := by dsimp only [dat]

theorem before_0 (V : Entry F) (c : Dev nD) (t : Fin cfg0.N) (d) : (dat V c).before 0 t d = blk V c 0 t :=
  ((dat V c).before_in_eq_fetched 0 rfl (fun _ => rfl) (fun _ _ _ => rfl) (fun _ => rfl) t d).trans rfl

theorem before_1 (V : Entry F) (c : Dev nD) (t : Fin cfg0.N) (d) : (dat V c).before 1 t d = blk V c 1 t :=
  ((dat V c).before_in_eq_fetched 1 rfl (fun _ => rfl) (fun _ _ _ => rfl) (fun _ => rfl) t d).trans rfl

theorem before_2 (V : Entry F) (c : Dev nD) (t : Fin cfg0.N) (d) : (dat V c).before 2 t d = blk V c 2 t :=
  ((dat V c).before_in_eq_fetched 2 rfl (fun _ => rfl) (fun _ _ _ => rfl) (fun _ => rfl) t d).trans rfl

theorem body_obligation (V : Entry F) (c : Dev nD) : BodyObligation (dat V c) (defs₀ (F := F)) Variants.none () Set.univ := fun t => by
  rw [bigSep_W0, bigSep_W0]
  show _ ⊢ wp _ _ _ (bodyAt0 t) fun _ =>
      iprop((dat V c).Φ t.castSucc ∗ (dat V c).owesAt () t.castSucc
        ∗ owns c.tc (st0_0 t) fullShare (blk V c 0 t) ∗ owns c.tc (st0_1 t) fullShare (blk V c 1 t)
        ∗ owns c.tc (st0_2 t) fullShare (blk V c 2 t)
        ∗ owns c.tc (st0_3 t) fullShare ((dat V c).after 3 t)
        ∗ owns c.tc (st0_4 t) fullShare ((dat V c).after 4 t))
  simp only [before_0, before_1, before_2, after_3, after_4]
  iintro ⟨HΦ, Ho, ⟨%d0, H0⟩, ⟨%d1, H1⟩, ⟨%d2, H2⟩, ⟨%d3, H3⟩, ⟨%d4, H4⟩⟩
  iapply (run_kernel c Set.univ _ (st0_0 t) (st0_1 t) (st0_2 t) (st0_3 t) (st0_4 t) _ _ _ _ _ (blk V c 0 t) (blk V c 1 t) (blk V c 2 t) _ _ _)
  iframe H0 H1 H2 H3 H4
  iintro ⟨H0, H1, H2, H3, H4⟩
  iframe HΦ Ho H0 H1 H2 H3 H4

theorem hin (V : Entry F) (c : Dev nD) : iprop((∃ r, prngReg c r) ∗ Pipeline.scopedRest (Ix := Unit) (Name := ℕ) (U := UR sig nD τ) (Lvl := ℕ) (Val := Elt F) spec0 c)
    ⊢ ((dat V c).Φ 0 : sProp 𝕄) := Laws.sep_comm.1

theorem hout (V : Entry F) (c : Dev nD) : ((dat V c).Φ (Fin.last cfg0.N) : sProp 𝕄)
    ⊢ iprop((∃ r, prngReg c r) ∗ Pipeline.scopedRest (Ix := Unit) (Name := ℕ) (U := UR sig nD τ) (Lvl := ℕ) (Val := Elt F) spec0 c) := Laws.sep_comm.1

end Cert.Kernel.Reg0

end
-- ==== Proof.K.Reg1State.lean ====
import proofs.«419445_j27642409517469_3_alg».proof.Proof.Gen.Kernel.Skeleton
import proofs.«419445_j27642409517469_3_alg».proof.Proof.Gen.Kernel.Points
import Idealize.ShloMosaic.Lib.Pipeline.FrameBody
import Idealize.ShloMosaic.Lib.Tactic
import proofs.«419445_j27642409517469_3_alg».proof.Proof.K.Common

noncomputable section

namespace Cert.Kernel.Reg1

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

abbrev Blk (F : FTy → Type) : Type := Vec F S1x512x1024 .bf16

def iblk (V : Entry F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

structure St (F : FTy → Type) where
  m : Vec F S512x1 .f32
  l : Vec F S512x1 .f32
  acc : Vec F S512x1024 .f32

def St.reset : St F := ⟨k1_pay1 (F := F), k1_pay2 (F := F), k1_pay3 (F := F)⟩

def St.upd (qi ki : BitVec 32) (q k v : Blk F) (s : St F) : St F where
  m := k1_pay6 (k1_pay10 qi ki q k s.m)
  l := k1_pay4 (k1_pay13 qi ki q k s.m s.m s.l)
  acc := k1_pay5 (k1_pay8 v) (k1_pay11 qi ki q k s.m s.m) (k1_pay12 qi ki q k s.m) s.acc

def St.pre (t : Fin cfg1.N) (s : St F) : St F := if t.val % 4 = 0 then St.reset else s

def stepAt (V : Entry F) (c : Dev nD) (t : Fin cfg1.N) (s : St F) : St F :=
  if t.val % 4 ≤ t.val / 4 % 4 then
    St.upd (BitVec.ofNat 32 (grid1.coords t 1).val) (BitVec.ofNat 32 (grid1.coords t 2).val) (iblk V c 0 t) (iblk V c 1 t) (iblk V c 2 t) (St.pre t s)
  else St.pre t s

def stAfter (V : Entry F) (c : Dev nD) : (n : ℕ) → n < cfg1.N → St F
  | 0, h => stepAt V c ⟨0, h⟩ St.reset
  | n + 1, h => stepAt V c ⟨n + 1, h⟩ (stAfter V c n (Nat.lt_of_succ_lt h))

/-- A point that resets ignores the state it is handed, so any state that is the previous point's after the first will do. -/
theorem stAfter_step (V : Entry F) (c : Dev nD) (t : Fin cfg1.N) (s : St F)
    (hs : ∀ hz : t.val ≠ 0, s = stAfter V c (t.val - 1) (by omega)) : stAfter V c t.val t.isLt = stepAt V c t s := by
  obtain ⟨_ | n, hn⟩ := t
  · rfl
  · rw [hs (Nat.succ_ne_zero n)]; rfl

def outAt (V : Entry F) (c : Dev nD) (t : Fin cfg1.N) : Blk F :=
  k1_pay7 (stAfter V c t.val t.isLt).acc (stAfter V c t.val t.isLt).l

def scr (c : Dev nD) (s : St F) : sProp 𝕄 :=
  iprop(owns c.tc (Memref.whole cc1_scratch0) fullShare s.m ∗ owns c.tc (Memref.whole cc1_scratch1) fullShare s.l ∗ owns c.tc (Memref.whole cc1_scratch2) fullShare s.acc)

abbrev restBut (c : Dev nD) : sProp 𝕄 :=
  Pipeline.scopedRestBut (Ix := Unit) (Name := ℕ) (U := UR sig nD τ) (Lvl := ℕ) (Val := Elt F) spec1 c [cc1_scratch0, cc1_scratch1, cc1_scratch2]

/-- Between points the scratch buffers hold some state, after the first point the one the point before left. -/
def Phi (V : Entry F) (c : Dev nD) (n : ℕ) (h : n ≤ cfg1.N) : sProp 𝕄 :=
  iprop((∃ r, prngReg c r) ∗ (∃ s : St F, ⌜∀ hz : n ≠ 0, s = stAfter V c (n - 1) (by omega)⌝ ∗ scr c s) ∗ restBut (F := F) c)

def dat (V : Entry F) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := Phi V c t.val (Nat.le_of_lt_succ t.isLt)
  q w := match w with
    | ⟨0, _⟩ => fullShare.left
    | ⟨1, _⟩ => fullShare
    | ⟨2, _⟩ => fullShare.right
    | ⟨3, _⟩ => fullShare
  owed _ := 0

theorem dat_Φ (V : Entry F) (c : Dev nD) (p : Fin (cfg1.N + 1)) : (dat V c).Φ p = Phi V c p.val (Nat.le_of_lt_succ p.isLt) := rfl

theorem dat_A (V : Entry F) (c : Dev nD) (w : Fin cfg1.W) : (dat V c).A w = V c (Pipeline.arrRef spec1 w) := rfl

theorem dat_q (V : Entry F) (c : Dev nD) : (dat V c).q 0 = fullShare.left ∧ (dat V c).q 2 = fullShare.right ∧ (dat V c).q 1 = fullShare ∧ (dat V c).q 3 = fullShare := ⟨rfl, rfl, rfl, rfl⟩

theorem dat_owed (V : Entry F) (c : Dev nD) (t : Fin (cfg1.N + 1)) : (dat V c).owed t = 0 := rfl

theorem dat_recorded (V : Entry F) (c : Dev nD) (t : Fin (cfg1.N + 1)) : (dat V c).recorded t = Set.univ := rfl

theorem after_3 (V : Entry F) (c : Dev nD) (t : Fin cfg1.N) : (dat V c).after 3 t = outAt V c t := rfl

end Cert.Kernel.Reg1

end
-- ==== Proof.K.Reg1.lean ====
import proofs.«419445_j27642409517469_3_alg».proof.Proof.K.Reg1State
import Idealize.ShloMosaic.Lib.Pipeline.Value

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

abbrev cond1 (i : grid1.Coords) : Prop := (Scalar.cmpi .ne (Scalar.extui (Scalar.cmpi .eq (BitVec.ofNat 32 (i 2).val) 0#32)) 0#32) = 1#1
theorem hcond1 : ∀ t : Fin cfg1.N, cond1 (grid1.coords t) ↔ t.val % 4 = 0 := by decide +kernel
abbrev cond2 (i : grid1.Coords) : Prop := (Scalar.cmpi .ne (Scalar.extui (Scalar.cmpi .sle (Scalar.muli (BitVec.ofNat 32 (i 2).val) 512#32) (Scalar.addi (Scalar.muli (BitVec.ofNat 32 (i 1).val) 512#32) 511#32))) 0#32) = 1#1
theorem hcond2 : ∀ t : Fin cfg1.N, cond2 (grid1.coords t) ↔ t.val % 4 ≤ t.val / 4 % 4 := by decide +kernel
abbrev cond3 (i : grid1.Coords) : Prop := k1_cond3 i = 1#1
theorem hcond3 : ∀ t : Fin cfg1.N, (cond3 (grid1.coords t) → cfg1.idle 3 (grid1.coords t) = false)
    ∧ (¬cond3 (grid1.coords t) → cfg1.idle 3 (grid1.coords t) = true ∧ (cfg1.win 3).flush t = false) := by decide +kernel

theorem hz2 : (![0, 0] : Fin 2 → Nat) = fun _ => 0 := funext fun a => by fin_cases a <;> rfl
theorem hz3 : (![0, 0, 0] : Fin 3 → Nat) = fun _ => 0 := funext fun a => by fin_cases a <;> rfl

theorem read_writes_unit_zero {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e; exact e

/-- The state the body leaves from `s`: reset at the first key tile, then the tile folded in unless it lies above the diagonal. -/
def post (i : grid1.Coords) (q k v : Blk F) (s : St F) : St F :=
  if cond2 i then St.upd (BitVec.ofNat 32 (i 1).val) (BitVec.ofNat 32 (i 2).val) q k v (if cond1 i then St.reset else s)
  else if cond1 i then St.reset else s

theorem stepAt_eq (V : Entry F) (c : Dev nD) (t : Fin cfg1.N) (s : St F) :
    stepAt V c t s = post (grid1.coords t) ((dat V c).after 0 t) ((dat V c).after 1 t) ((dat V c).after 2 t) s := by
  simp only [stepAt, St.pre, post, hcond1, hcond2]; rfl

/-- Whichever way its three conditionals go, the body leaves the scratch buffers at `post` of their state and, at the last key tile, the output block at numerator over denominator of that. -/
theorem run (c : Dev nD) (i : grid1.Coords) (arg3 arg4 arg5 arg6 : Memref sig .tc .vmem S1x512x1024 .bf16) (arg7 arg8 : Memref sig .tc .vmem S512x1 .f32)
    (arg9 : Memref sig .tc .vmem S512x1024 .f32) (harg3 : arg3.IsWhole) (harg4 : arg4.IsWhole) (harg5 : arg5.IsWhole) (harg6 : arg6.IsWhole)
    (harg7 : arg7.IsWhole) (harg8 : arg8.IsWhole) (harg9 : arg9.IsWhole) (q k v xo : Blk F) (s : St F) (K : PUnit → sProp 𝕄) :
    iprop((owns c.tc arg3 fullShare q ∗ owns c.tc arg4 fullShare k ∗ owns c.tc arg5 fullShare v
          ∗ owns c.tc arg6 fullShare xo
          ∗ owns c.tc arg7 fullShare s.m ∗ owns c.tc arg8 fullShare s.l ∗ owns c.tc arg9 fullShare s.acc)
        ∗ (iprop(owns c.tc arg3 fullShare q ∗ owns c.tc arg4 fullShare k ∗ owns c.tc arg5 fullShare v
            ∗ owns c.tc arg6 fullShare (if cond3 i then k1_pay7 (post i q k v s).acc (post i q k v s).l else xo)
            ∗ owns c.tc arg7 fullShare (post i q k v s).m
            ∗ owns c.tc arg8 fullShare (post i q k v s).l
            ∗ owns c.tc arg9 fullShare (post i q k v s).acc) -∗ K ⟨⟩))
      ⊢ wp frame (wpE (defs₀ (F := F)) Variants.none c none) Set.univ (cc1__attn_kernel i arg3 harg3 arg4 harg4 arg5 harg5 arg6 harg6 arg7 harg7 arg8 harg8 arg9 harg9) K := by
  obtain ⟨m0, l0, a0⟩ := s
  by_cases hc1 : cond1 i <;> by_cases hc2 : cond2 i <;> by_cases hc3 : cond3 i <;>
  ( simp only [post, cond1, cond2, cond3, hc1, hc2, hc3, ↓reduceIte, cc1__attn_kernel_eq_skeleton]; unfold cc1__attn_kernel_skel owns
    iintro ⟨⟨⟨%f3, %hf3, H3⟩, ⟨%f4, %hf4, H4⟩, ⟨%f5, %hf5, H5⟩, ⟨%f6, %hf6, H6⟩, ⟨%f7, %hf7, H7⟩, ⟨%f8, %hf8, H8⟩, %f9, %hf9, H9⟩, Hk⟩
    subst hf3 hf4 hf5 hf6 hf7 hf8 hf9
    sl_exec
    sl_step
    iapply Hk
    isplitl [H3]; swap; isplitl [H4]; swap; isplitl [H5]; swap; isplitl [H6]; swap; isplitl [H7]; swap; isplitl [H8]; swap
    all_goals
      iexists _; isplitr; swap; iassumption
      ipureintro
      first
      | with_reducible rfl
      | sl_unfold_run_names
        first | rw [read_writes_unit_zero _ _ hz2] | rw [read_writes_unit_zero _ _ hz3]
        simp only [View.readCov_cons_toLoadRect, View.readAt_eq_ld, View.ld_unit_zero (S := S512x1) hz2, View.ld_unit_zero (S := S512x1024) hz2,
          View.ld_unit_zero (S := S1x512x1024) hz3, St.upd, St.reset] )

theorem before_in (V : Entry F) (c : Dev nD) (w : Fin cfg1.W) (hw : w ≠ 3) (t : Fin cfg1.N) (d) : (dat V c).before w t d = (dat V c).after w t := by
  fin_cases w <;> first
    | exact absurd rfl hw
    | exact (dat V c).before_in_eq_fetched _ rfl (fun _ => rfl) (fun _ _ _ => rfl) (fun _ => rfl) t d

theorem leaves_3 (V : Entry F) (c : Dev nD) (t : Fin cfg1.N) (d) :
    owns c.tc (st1_3 t) fullShare (if cond3 (grid1.coords t) then outAt V c t else (dat V c).before 3 t d) ⊢ ((dat V c).leavesExact 3 t : sProp 𝕄) := by
  by_cases h : cond3 (grid1.coords t)
  · rw [if_pos h, ← after_3]; unfold Dat.leavesExact; rw [(hcond3 t).1 h] <;> exact .rfl
  · rw [if_neg h, Dat.leavesExact_idle _ 3 t ((hcond3 t).2 h).1 ((hcond3 t).2 h).2]; iintro H; iexists d; iexact H

theorem body_obligation (V : Entry F) (c : Dev nD) : BodyObligation (dat V c) (defs₀ (F := F)) Variants.none () Set.univ := fun t => by
  rw [bigSep_W1, bigSep_W1, dat_Φ, dat_Φ]
  show _ ⊢ wp _ _ _ (bodyAt1 t) _
  unfold bodyAt1 Phi scr
  simp (disch := decide) only [before_in]
  iintro ⟨⟨Hg, ⟨%s, %hs, S0, S1, S2⟩, HB⟩, Ho, ⟨%d0, H0⟩, ⟨%d1, H1⟩, ⟨%d2, H2⟩, ⟨%d3, H3⟩⟩
  have e := (stAfter_step V c t s hs).trans (stepAt_eq V c t s)
  iapply (run c (grid1.coords t) _ _ _ _ _ _ _ _ _ _ _ _ _ _ ((dat V c).after 0 t) ((dat V c).after 1 t) ((dat V c).after 2 t) ((dat V c).before 3 t d3) s _)
  isplitl [H0 H1 H2 H3 S0 S1 S2]; · iframe
  iintro ⟨H0, H1, H2, H3, S0, S1, S2⟩
  isplitl [Hg HB S0 S1 S2]
  · iframe Hg HB
    iexists _; iframe S0 S1 S2
    ipureintro; exact fun _ => e.symm
  isplitl [Ho]; · iexact Ho
  iframe H0 H1 H2
  iapply (leaves_3 V c t d3)
  unfold outAt; rw [e]; iexact H3

theorem rest_split (c : Dev nD) :
    (Pipeline.scopedRest (Ix := Unit) (Name := ℕ) (U := UR sig nD τ) (Lvl := ℕ) (Val := Elt F) spec1 c : sProp 𝕄)
      = iprop(((∃ f, c.tc.loc cc1_scratch0 ↦{fullShare} f) ∗ (∃ f, c.tc.loc cc1_scratch1 ↦{fullShare} f) ∗ (∃ f, c.tc.loc cc1_scratch2 ↦{fullShare} f)) ∗ restBut (F := F) c) :=
  Pipeline.scopedRest_split_of_list spec1 c [cc1_scratch0, cc1_scratch1, cc1_scratch2] (by decide) (by decide)

theorem hin (V : Entry F) (c : Dev nD) : iprop((∃ r, prngReg c r) ∗ Pipeline.scopedRest (Ix := Unit) (Name := ℕ) (U := UR sig nD τ) (Lvl := ℕ) (Val := Elt F) spec1 c)
    ⊢ ((dat V c).Φ 0 : sProp 𝕄) := by
  rw [rest_split, dat_Φ]; unfold Phi scr; simp only [owns_whole]
  iintro ⟨Hg, ⟨⟨%d0, S0⟩, ⟨%d1, S1⟩, ⟨%d2, S2⟩⟩, HB⟩
  iframe Hg HB
  iexists ⟨d0, d1, d2⟩; iframe
  ipureintro; exact fun hz => absurd rfl hz

theorem hout (V : Entry F) (c : Dev nD) : ((dat V c).Φ (Fin.last cfg1.N) : sProp 𝕄)
    ⊢ iprop((∃ r, prngReg c r) ∗ Pipeline.scopedRest (Ix := Unit) (Name := ℕ) (U := UR sig nD τ) (Lvl := ℕ) (Val := Elt F) spec1 c) := by
  rw [rest_split, dat_Φ]; unfold Phi scr; simp only [owns_whole]
  iintro ⟨Hg, ⟨%s, -, S0, S1, S2⟩, HB⟩
  iframe Hg HB
  isplitl [S0]; · iexists _; iexact S0
  isplitl [S1]; · iexists _; iexact S1
  iexists _; iexact S2

end Cert.Kernel.Reg1

end
-- ==== Proof.K.Reg2State.lean ====
import proofs.«419445_j27642409517469_3_alg».proof.Proof.Gen.Kernel.Skeleton
import proofs.«419445_j27642409517469_3_alg».proof.Proof.Gen.Kernel.Points
import Idealize.ShloMosaic.Lib.Pipeline.FrameBody
import Idealize.ShloMosaic.Lib.Tactic
import proofs.«419445_j27642409517469_3_alg».proof.Proof.K.Common

noncomputable section

namespace Cert.Kernel.Reg2

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

def iblk (V : Entry F) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

abbrev St (F : FTy → Type) : Type := Vec F S2048x1 .f32 × Vec F S2048x1 .f32

def st0 : St F := (k2_pay2 (F := F), k2_pay3 (F := F))

def upd (xb : Vec F S2048x1024 .bf16) (wb : Vec F S1024x640 .bf16) (s : St F) : St F :=
  (k2_pay7 xb wb s.1, k2_pay6 xb wb s.1 s.1 s.2)

def stAfter (V : Entry F) (c : Dev nD) : (n : ℕ) → n < cfg2.N → St F
  | 0, hn => upd (iblk V c 0 ⟨0, hn⟩) (iblk V c 1 ⟨0, hn⟩) st0
  | n + 1, hn => upd (iblk V c 0 ⟨n + 1, hn⟩) (iblk V c 1 ⟨n + 1, hn⟩)
      (if (n + 1) % 50 = 0 then st0 else stAfter V c n (Nat.lt_of_succ_lt hn))

theorem stAfter_first (V : Entry F) (c : Dev nD) (t : Fin cfg2.N) (h : t.val % 50 = 0) :
    stAfter V c t.val t.isLt = upd (iblk V c 0 t) (iblk V c 1 t) st0 := by
  rcases t with ⟨_ | n, hn⟩
  exacts [rfl, congrArg _ (if_pos h)]

theorem stAfter_next (V : Entry F) (c : Dev nD) (t : Fin cfg2.N) (h : ¬ t.val % 50 = 0) :
    stAfter V c t.val t.isLt = upd (iblk V c 0 t) (iblk V c 1 t)
      (stAfter V c (t.val - 1) (Nat.lt_of_le_of_lt (Nat.sub_le _ _) t.isLt)) := by
  rcases t with ⟨_ | n, hn⟩
  exacts [absurd (Nat.zero_mod _) h, congrArg _ (if_neg h)]

/-- The running pair is some pair, which past the first point is the recursion's value at the point before. -/
def Phi (V : Entry F) (c : Dev nD) (n : ℕ) (hn : n ≤ cfg2.N) : sProp 𝕄 :=
  iprop(∃ m l, ⌜∀ h : n ≠ 0, (m, l) = stAfter V c (n - 1) (by omega)⌝ ∗ (∃ r, prngReg c r)
    ∗ Pipeline.scopedRestBut spec2 c [cc2_scratch0, cc2_scratch1]
    ∗ owns c.tc (Memref.whole cc2_scratch0) fullShare m ∗ owns c.tc (Memref.whole cc2_scratch1) fullShare l)

def dat (V : Entry F) (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => k2_pay4 (iblk V c 0 t) (iblk V c 1 t)
    | ⟨3, _⟩ => k2_pay1 (stAfter V c t.val t.isLt).1 (stAfter V c t.val t.isLt).2
  Φ t := Phi V c t.val (Nat.le_of_lt_succ t.isLt)
  q _ := fullShare
  owed _ := 0

theorem dat_A (V : Entry F) (c : Dev nD) (w : Fin cfg2.W) : (dat V c).A w = V c (Pipeline.arrRef spec2 w) := rfl

theorem dat_q (V : Entry F) (c : Dev nD) (w : Fin cfg2.W) : (dat V c).q w = fullShare := rfl

theorem dat_owed (V : Entry F) (c : Dev nD) (t : Fin (cfg2.N + 1)) : (dat V c).owed t = 0 := rfl

theorem dat_recorded (V : Entry F) (c : Dev nD) (t : Fin (cfg2.N + 1)) : (dat V c).recorded t = Set.univ := rfl

theorem dat_Φ (V : Entry F) (c : Dev nD) (t : Fin (cfg2.N + 1)) : (dat V c).Φ t = Phi V c t.val (Nat.le_of_lt_succ t.isLt) := rfl

theorem after_2 (V : Entry F) (c : Dev nD) (t : Fin cfg2.N) :
    (dat V c).after 2 t = k2_pay4 (iblk V c 0 t) (iblk V c 1 t) := rfl
theorem after_3 (V : Entry F) (c : Dev nD) (t : Fin cfg2.N) :
    (dat V c).after 3 t = k2_pay1 (stAfter V c t.val t.isLt).1 (stAfter V c t.val t.isLt).2 := rfl

end Cert.Kernel.Reg2

end
-- ==== Proof.K.Reg2.lean ====
import Idealize.ShloMosaic.Lib.Pipeline.Value
import proofs.«419445_j27642409517469_3_alg».proof.Proof.K.Reg2State

noncomputable section

namespace Cert.Kernel.Reg2

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl

abbrev cond1 (i : grid2.Coords) : Prop :=
  (Scalar.cmpi .ne (Scalar.extui (Scalar.cmpi .eq (BitVec.ofNat 32 (i 1).val) 0#32)) 0#32) = 1#1

abbrev cond2 (i : grid2.Coords) : Prop := k2_cond2 i = 1#1

/-- The pair a point leaves: the update of the reset pair where the vocabulary coordinate is zero, else of the pair found. -/
def nxt (i : grid2.Coords) (xb : Vec F S2048x1024 .bf16) (wb : Vec F S1024x640 .bf16) (s : St F) : St F :=
  upd xb wb (if cond1 i then st0 else s)

/-- One point of the online log-sum-exp: the pair becomes `nxt`, and at the last vocabulary coordinate its log-sum-exp is the output. -/
theorem run (c : Dev nD) (E : Set ℕ) (i : grid2.Coords)
    (arg2 : Memref sig .tc .vmem S2048x1024 .bf16) (arg3 : Memref sig .tc .vmem S1024x640 .bf16) (arg4 : Memref sig .tc .vmem S2048x640 .f32)
    (arg5 arg6 arg7 : Memref sig .tc .vmem S2048x1 .f32) (harg2 : arg2.IsWhole) (harg3 : arg3.IsWhole) (harg4 : arg4.IsWhole)
    (harg5 : arg5.IsWhole) (harg6 : arg6.IsWhole) (harg7 : arg7.IsWhole)
    (hx : cond1 i → ¬ cond2 i)
    (xb : Vec F S2048x1024 .bf16) (wb : Vec F S1024x640 .bf16) (y4 : Vec F S2048x640 .f32) (y5 m l : Vec F S2048x1 .f32)
    (K : PUnit → sProp 𝕄) :
    iprop(owns c.tc arg2 fullShare xb ∗ owns c.tc arg3 fullShare wb ∗ owns c.tc arg4 fullShare y4
        ∗ owns c.tc arg5 fullShare y5 ∗ owns c.tc arg6 fullShare m ∗ owns c.tc arg7 fullShare l
        ∗ (iprop(owns c.tc arg2 fullShare xb ∗ owns c.tc arg3 fullShare wb
            ∗ owns c.tc arg4 fullShare (k2_pay4 xb wb)
            ∗ owns c.tc arg5 fullShare (if cond2 i then k2_pay1 (nxt i xb wb (m, l)).1 (nxt i xb wb (m, l)).2 else y5)
            ∗ owns c.tc arg6 fullShare (nxt i xb wb (m, l)).1 ∗ owns c.tc arg7 fullShare (nxt i xb wb (m, l)).2) -∗ K ⟨⟩))
      ⊢ wp frame (wpE (defs₀ (F := F)) Variants.none c none) E (cc2__lmhead_kernel i arg2 harg2 arg3 harg3 arg4 harg4 arg5 harg5 arg6 harg6 arg7 harg7) K := by
  unfold nxt upd st0
  by_cases h1 : cond1 i <;> by_cases h2 : cond2 i
  · exact absurd h2 (hx h1)
  all_goals
    first | rw [if_pos h1] | rw [if_neg h1]
    first | rw [if_pos h2] | rw [if_neg h2]
    simp only [cc2__lmhead_kernel_eq_skeleton]; unfold cc2__lmhead_kernel_skel
    simp only [k2_part1_eq_skeleton]; unfold k2_part1_skel
    unfold owns
    iintro ⟨⟨%f2, %hf2, H2⟩, ⟨%f3, %hf3, H3⟩, ⟨%f4, -, H4⟩, ⟨%f5, %hf5, H5⟩, ⟨%f6, %hf6, H6⟩, ⟨%f7, %hf7, H7⟩, Hk⟩
    subst hf2 hf3 hf5 hf6 hf7
    sl_exec! (disch := first | sl_exact h1 | sl_exact h2)
    sl_step
    iapply Hk
    isplitl [H2]; rotate_left
    isplitl [H3]; rotate_left
    isplitl [H4]; rotate_left
    isplitl [H5]; rotate_left
    isplitl [H6]; rotate_left
    all_goals
      iexists _; isplitr; swap; iassumption
      ipureintro; sl_unfold_run_names
      simp only [View.read_writes_junk_eq_canon, View.canon_cons_unit_zero (S := S2048x640) zeros2, View.canon_cons_unit_zero (S := S2048x1) zeros2,
        View.readAt_eq_ld, View.ld_unit_zero (S := S2048x1024) zeros2, View.ld_unit_zero (S := S1024x640) zeros2, View.ld_unit_zero (S := S2048x1) zeros2,
        View.readCov_cons_toLoadRect]

theorem hcond1 : ∀ t : Fin cfg2.N, cond1 (grid2.coords t) ↔ t.val % 50 = 0 :=
  (by decide +kernel : ∀ t : Fin grid2.N, cond1 (grid2.coords t) ↔ t.val % 50 = 0)

theorem hcond2 : ∀ t : Fin cfg2.N, cond2 (grid2.coords t) ↔ t.val % 50 = 49 :=
  (by decide +kernel : ∀ t : Fin grid2.N, cond2 (grid2.coords t) ↔ t.val % 50 = 49)

theorem before_0 (V : Entry F) (c : Dev nD) (t : Fin cfg2.N) (d) : (dat V c).before 0 t d = iblk V c 0 t :=
  ((dat V c).before_in_eq_fetched 0 rfl (fun _ => rfl) (fun _ _ _ => rfl) (fun _ => rfl) t d).trans rfl

theorem before_1 (V : Entry F) (c : Dev nD) (t : Fin cfg2.N) (d) : (dat V c).before 1 t d = iblk V c 1 t :=
  ((dat V c).before_in_eq_fetched 1 rfl (fun _ => rfl) (fun _ _ _ => rfl) (fun _ => rfl) t d).trans rfl

theorem leaves_3 (V : Entry F) (c : Dev nD) (t : Fin cfg2.N) (d) :
    owns c.tc (st2_3 t) fullShare (if cond2 (grid2.coords t) then k2_pay1 (stAfter V c t.val t.isLt).1 (stAfter V c t.val t.isLt).2 else (dat V c).before 3 t d)
      ⊢ ((dat V c).leavesExact 3 t : sProp 𝕄) := by
  have hi : cfg2.idle 3 (cfg2.grid.coords t) = !decide (cond2 (grid2.coords t)) := rfl
  by_cases h : cond2 (grid2.coords t)
  · rw [if_pos h]; unfold Dat.leavesExact
    rw [hi, decide_eq_true h, Bool.not_true, after_3]
  · rw [if_neg h, Dat.leavesExact_idle (dat V c) 3 t (by rw [hi, decide_eq_false h, Bool.not_false])
      (Bool.eq_false_iff.mpr fun hf => h ((hcond2 t).mpr ((flush2_3 t).mp hf)))]
    iintro H; iexists _; iexact H

/-- Whatever pair the invariant holds, the pair a point leaves is the recursion's. -/
theorem nxt_eq (V : Entry F) (c : Dev nD) (t : Fin cfg2.N) (s : St F)
    (hs : ∀ h : t.val ≠ 0, s = stAfter V c (t.val - 1) (Nat.lt_of_le_of_lt (Nat.sub_le _ _) t.isLt)) :
    nxt (grid2.coords t) (iblk V c 0 t) (iblk V c 1 t) s = stAfter V c t.val t.isLt := by
  unfold nxt
  by_cases h : t.val % 50 = 0
  · rw [if_pos ((hcond1 t).mpr h), stAfter_first V c t h]
  · rw [if_neg (mt (hcond1 t).mp h), stAfter_next V c t h, hs fun h0 => h (by rw [h0])]

theorem body_obligation (V : Entry F) (c : Dev nD) : BodyObligation (dat V c) (defs₀ (F := F)) Variants.none () Set.univ := fun t => by
  rw [bigSep_W2, bigSep_W2]
  show _ ⊢ wp _ _ _ (bodyAt2 t) fun _ =>
      iprop((dat V c).Φ t.succ ∗ (dat V c).owesAt () t.castSucc
        ∗ owns c.tc (st2_0 t) fullShare (iblk V c 0 t) ∗ owns c.tc (st2_1 t) fullShare (iblk V c 1 t)
        ∗ owns c.tc (st2_2 t) fullShare (k2_pay4 (iblk V c 0 t) (iblk V c 1 t)) ∗ (dat V c).leavesExact 3 t)
  simp only [before_0, before_1]
  rw [dat_Φ, dat_Φ]; unfold Phi
  iintro ⟨⟨%m, %l, %hs, Hg, Hr, HS0, HS1⟩, Ho, ⟨%e0, H0⟩, ⟨%e1, H1⟩, ⟨%e2, H2⟩, ⟨%e3, H3⟩⟩
  iapply (run c Set.univ (grid2.coords t) (st2_0 t) (st2_1 t) (st2_2 t) (st2_3 t) _ _ _ _ _ _ _ _
    (fun h1 h2 => by have := (hcond1 t).mp h1; have := (hcond2 t).mp h2; omega) (iblk V c 0 t) (iblk V c 1 t) _ _ m l _)
  iframe H0 H1 H2 H3 HS0 HS1
  iintro ⟨H0, H1, H2, H3, HS0, HS1⟩
  rw [nxt_eq V c t _ hs]
  isplitl [Hg Hr HS0 HS1]
  · iexists (stAfter V c t.val t.isLt).1, (stAfter V c t.val t.isLt).2; iframe Hg Hr HS0 HS1; ipureintro; exact fun _ => rfl
  iframe Ho H0 H1 H2
  iapply (leaves_3 V c t e3); iexact H3

theorem hin (V : Entry F) (c : Dev nD) : iprop((∃ r, prngReg c r) ∗ Pipeline.scopedRest (Ix := Unit) (Name := ℕ) (U := UR sig nD τ) (Lvl := ℕ) (Val := Elt F) spec2 c)
    ⊢ ((dat V c).Φ 0 : sProp 𝕄) := by
  rw [Pipeline.scopedRest_split_of_list spec2 c [cc2_scratch0, cc2_scratch1] (by decide) (by decide), bigSepL_cons_cons, bigSepL_singleton, dat_Φ]
  unfold Phi; simp only [owns_whole]
  show iprop(_ ∗ (_ ∗ _) ∗ _) ⊢ _
  iintro ⟨Hg, ⟨⟨%m, H0⟩, ⟨%l, H1⟩⟩, Hr⟩
  iexists m, l; iframe Hg Hr H0 H1
  ipureintro; exact fun h => absurd (Fin.val_zero _) h

theorem hout (V : Entry F) (c : Dev nD) : ((dat V c).Φ (Fin.last cfg2.N) : sProp 𝕄)
    ⊢ iprop((∃ r, prngReg c r) ∗ Pipeline.scopedRest (Ix := Unit) (Name := ℕ) (U := UR sig nD τ) (Lvl := ℕ) (Val := Elt F) spec2 c) := by
  rw [Pipeline.scopedRest_split_of_list spec2 c [cc2_scratch0, cc2_scratch1] (by decide) (by decide), bigSepL_cons_cons, bigSepL_singleton, dat_Φ]
  unfold Phi; simp only [owns_whole]
  show _ ⊢ iprop(_ ∗ (_ ∗ _) ∗ _)
  iintro ⟨%m, %l, -, Hg, Hr, H0, H1⟩
  iframe Hg Hr
  isplitl [H0]; · iexists _; iexact H0
  iexists _; iexact H1

end Cert.Kernel.Reg2

end
-- ==== Proof.K.Run.lean ====
import proofs.«419445_j27642409517469_3_alg».proof.Proof.Gen.Kernel.Regions
import proofs.«419445_j27642409517469_3_alg».proof.Proof.K.Reg0
import proofs.«419445_j27642409517469_3_alg».proof.Proof.K.Reg1
import proofs.«419445_j27642409517469_3_alg».proof.Proof.K.Reg2
import Idealize.ShloMosaic.Lib.Pipeline.RegionsLoop

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev base : Entry F := fun c r => m ((c : Thread nD τ).loc r)

abbrev entryV1 : Entry F := fun c b => V1 m c b

def outs2 : Entry F := fun c =>
  Function.update (Function.update (base m c) main_v15_0 ((Reg0.dat (entryV1 m) c).arrAt 3 cfg0.N))
    main_v15_1 ((Reg0.dat (entryV1 m) c).arrAt 4 cfg0.N)

abbrev entry3 : Entry F := fun c b => V3 m (fun _ r c => outs2 m c r) c b

def outs4 : Entry F := fun c =>
  Function.update (base m c) main_v18 ((Reg1.dat (entry3 m) c).arrAt 3 cfg1.N)

abbrev entry5 : Entry F := fun c b => V5 m (fun J r c => match J with | 2 => outs2 m c r | _ => outs4 m c r) c b

def outs6 : Entry F := fun c =>
  Function.update (Function.update (base m c) main_v20_0 ((Reg2.dat (entry5 m) c).arrAt 2 cfg2.N))
    main_v20_1 ((Reg2.dat (entry5 m) c).arrAt 3 cfg2.N)

/-- What the three regions leave: each layer is stated over contents that hold the earlier regions' results only. -/
def outs : Outs (F := F) := fun J r c => match J with
  | 2 => outs2 m c r
  | 4 => outs4 m c r
  | 6 => outs6 m c r
  | _ => base m c r

abbrev entryV3 : Entry F := fun c b => V3 m (outs m) c b
abbrev entryV5 : Entry F := fun c b => V5 m (outs m) c b

def pdats : (p : Fin 3) → (c : Dev nD) → Dat τ (Elt F) Unit ℕ (UR sig nD τ) ℕ (Pipeline.pin (pcfgs (F := F)) adm p) c
  | ⟨0, _⟩ => fun c => Reg0.dat (entryV1 m) c
  | ⟨1, _⟩ => fun c => Reg1.dat (entryV3 m) c
  | ⟨2, _⟩ => fun c => Reg2.dat (entryV5 m) c

theorem outs_2_main_v15_0 (c : Dev nD) : outs m 2 main_v15_0 c = (Reg0.dat (entryV1 m) c).arrAt 3 cfg0.N := by
  show outs2 m c main_v15_0 = _
  exact (Function.update_of_ne (by decide) ..).trans (Function.update_self ..)
theorem outs_2_main_v15_1 (c : Dev nD) : outs m 2 main_v15_1 c = (Reg0.dat (entryV1 m) c).arrAt 4 cfg0.N := by
  show outs2 m c main_v15_1 = _
  exact Function.update_self ..
theorem outs_4_main_v18 (c : Dev nD) : outs m 4 main_v18 c = (Reg1.dat (entryV3 m) c).arrAt 3 cfg1.N := by
  show outs4 m c main_v18 = _
  exact Function.update_self ..
theorem outs_6_main_v20_0 (c : Dev nD) : outs m 6 main_v20_0 c = (Reg2.dat (entryV5 m) c).arrAt 2 cfg2.N := by
  show outs6 m c main_v20_0 = _
  exact (Function.update_of_ne (by decide) ..).trans (Function.update_self ..)
theorem outs_6_main_v20_1 (c : Dev nD) : outs m 6 main_v20_1 c = (Reg2.dat (entryV5 m) c).arrAt 3 cfg2.N := by
  show outs6 m c main_v20_1 = _
  exact Function.update_self ..

abbrev L : GSem nD τ sig → Finset Unit := fun _ => ∅
abbrev lv : GSem nD τ sig → Unit → ℕ := fun _ _ => 0

abbrev R (c : Dev nD) : sProp 𝕄 :=
  iprop((∃ r, prngReg c r) ∗ ∃ W, owes c.tc (0 : CellTallies nD τ sig Unit) W)

abbrev Seg := Pipeline.RegionSeg (pcfgs (F := F)) adm (pdats m) () defs₀ Variants.none L lv

set_option backward.isDefEq.respectTransparency.types false in
/-- A region between two valuations of the unscoped buffers: its arrays leave them at `V` and come back at `V'`. -/
def seg (p : Fin 3) (win : Pipeline.WinFacts₀ (pcfgs (F := F) p).spec)
    (bp : ∀ w : Fin (cfgs p).W, 0 < ((cfgs p).spec w).block.numel)
    (sw : ∀ (w : Fin (cfgs p).W) (s : Fin ((cfgs p).spec w).nbuf), (((cfgs p).spec w).stage s).IsWhole)
    (V V' : Dev nD → Valuation τ sig (Elt F))
    (hb : ∀ c, Pipeline.BodyObligation (pdats m p c) (defs₀ (F := F)) Variants.none () Set.univ)
    (ho : ∀ c t, (pdats m p c).owed t = 0) (hr : ∀ c, (pdats m p c).recorded 0 = Set.univ)
    (hi : ∀ c, iprop((∃ r, prngReg c r) ∗ Pipeline.scopedRest (cfgs p).spec c) ⊢ ((pdats m p c).Φ 0 : sProp 𝕄))
    (hl : ∀ c, ((pdats m p c).Φ (Fin.last (cfgs p).N) : sProp 𝕄) ⊢ iprop((∃ r, prngReg c r) ∗ Pipeline.scopedRest (cfgs p).spec c))
    (Z : Dev nD → sProp 𝕄)
    (he : ∀ c, (unscopedBufs c (fun b => V c b) : sProp 𝕄) ⊢ iprop((pdats m p c).arrays ((pdats m p c).arrAt · 0) ∗ Z c))
    (hx : ∀ c, iprop((pdats m p c).arrays ((pdats m p c).arrAt · (cfgs p).N) ∗ Z c) ⊢ (unscopedBufs c (fun b => V' c b) : sProp 𝕄)) :
    Seg m p where
  win := win
  block_pos := bp
  stage_whole := sw
  K := PEmpty
  osem k := k.elim
  ho := Pipeline.OwnSemFacts.none _
  hbody c := (hb c).loose
  hwaits := Pipeline.hwaits_of_owed_zero _ _ _ _ L lv p ho
  pre c := iprop(StableHlo.held c.tc (Pipeline.ucRefs τ sig) (V c) ∗ R c)
  post c := iprop(StableHlo.held c.tc (Pipeline.ucRefs τ sig) (V' c) ∗ R c)
  X c := iprop(∃ r, prngReg c r)
  Y c := iprop(∃ r, prngReg c r)
  Z := Z
  hentry c := by
    rw [Pipeline.ownSems0_none, ← Pipeline.unscopedBufs_held]
    iintro ⟨⟨Hheld, Hprng, Howes⟩, -, -⟩
    ihave Hsp := (he c) $$ Hheld
    icases Hsp with ⟨Harr, Hoff⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      rw [ho c 0]
      icases Howes with ⟨%W, Howes⟩
      iexists W
      isplitr; · ipureintro; exact fun x _ => Or.inl (by rw [hr c]; exact Set.mem_univ x)
      iexact Howes
    isplitl [Hprng] <;> iassumption
  hin c := (sep_mono .rfl sep_elim_right).trans (hi c)
  hout c := by
    rw [Pipeline.ownSems0_none]
    exact (hl c).trans (BI.sep_mono (BI.Entails.refl _) BI.emp_sep.2)
  hexit c := by
    rw [← Pipeline.unscopedBufs_held]
    iintro ⟨Harr, Howes, Hprng, Hoff⟩
    imodintro
    isplitl [Harr Hoff]
    · iapply hx c
      isplitl [Harr] <;> iassumption
    isplitl [Hprng]; · iexact Hprng
    unfold Pipeline.Dat.owesAt Pipeline.owesWithin
    rw [ho c (Fin.last _)]
    icases Howes with ⟨%W, -, Howes⟩
    iexists W
    iexact Howes

/-- A reference that is no array of the windows is none of the listed references, each of which is one. -/
theorem not_mem_of_arrs {gr W : ℕ} (spec : Fin W → Pipeline.WinSpec sig gr) (l : List (Ref sig .tc))
    (hl : ∀ r ∈ l, ∃ w, Pipeline.arrRef spec w = r) {b : Ref sig .tc} (hb : b ∉ Finset.univ.image (Pipeline.arrRef spec)) : b ∉ l :=
  fun h => let ⟨w, e⟩ := hl b h; hb (Finset.mem_image.mpr ⟨w, Finset.mem_univ _, e⟩)

theorem exit0_arr (c : Dev nD) : ∀ w : Fin cfg0.W,
    (Reg0.dat (entryV1 m) c).arrAt w cfg0.N = V2 m (outs m) c (Pipeline.arrRef spec0 w)
  | 0 => ((Reg0.dat (entryV1 m) c).arrAt_in 0 rfl _).trans
      ((Reg0.dat_A (entryV1 m) c 0).trans (V2_of m (outs m) c main_v11 (by decide)).symm)
  | 1 => ((Reg0.dat (entryV1 m) c).arrAt_in 1 rfl _).trans
      ((Reg0.dat_A (entryV1 m) c 1).trans (V2_of m (outs m) c main_v12 (by decide)).symm)
  | 2 => ((Reg0.dat (entryV1 m) c).arrAt_in 2 rfl _).trans
      ((Reg0.dat_A (entryV1 m) c 2).trans (V2_of m (outs m) c main_v13 (by decide)).symm)
  | 3 => by
    show _ = V2 m (outs m) c main_v15_0
    unfold V2
    rw [Function.update_of_ne (StableHlo.devRef_ne_of_ne (by decide)), Function.update_self, outs_2_main_v15_0]
  | 4 => by
    show _ = V2 m (outs m) c main_v15_1
    unfold V2
    rw [Function.update_self, outs_2_main_v15_1]
  | ⟨_ + 5, h⟩ => absurd h (Nat.not_lt.2 (Nat.le_add_left _ _))

set_option backward.isDefEq.respectTransparency.types false in
def R0 : Seg m 0 :=
  seg m 0 launch0.win.to₀ launch0.block_pos launch0.stage_whole (V1 m) (V2 m (outs m))
    (Reg0.body_obligation _) (Reg0.dat_owed _) (Reg0.dat_recorded _ · 0) (Reg0.hin _) (Reg0.hout _)
    (fun c => Pipeline.unscopedRest spec0 c (entryV1 m c))
    (fun c => Pipeline.arrays_of_unscopedBufs (p := 0) _ _ (pdats m) launch0.win launch0.arr_whole c
      ((pdats m 0 c).share_full (Reg0.dat_q (entryV1 m) c)) (entryV1 m c) (Reg0.dat_A (entryV1 m) c))
    (fun c => Pipeline.unscopedBufs_of_arrays (p := 0) _ _
      launch0.win launch0.arr_whole c (pdats m) ((pdats m 0 c).share_full (Reg0.dat_q (entryV1 m) c))
      (entryV1 m c) (fun b => V2 m (outs m) c b) ((pdats m 0 c).arrAt · cfg0.N) (exit0_arr m c)
      fun b hb => V2_of m (outs m) c b (not_mem_of_arrs spec0 _ (by decide) hb))

section Region1

variable (c : Dev nD)

theorem arrBufs1_eq (V : (b : Ref sig .tc) → Buf (Elt F) ((c : Thread nD τ).loc b)) :
    (Pipeline.arrBufs spec1 c V : sProp 𝕄)
      = iprop((((c : Thread nD τ).loc main_v17) ↦{fullShare} V main_v17) ∗ (((c : Thread nD τ).loc main_v16) ↦{fullShare} V main_v16)
          ∗ (((c : Thread nD τ).loc main_v18) ↦{fullShare} V main_v18)) := by
  unfold Pipeline.arrBufs
  exact bigSep_eq_bigSepL_of_eq [main_v17, main_v16, main_v18] (by decide) (by decide) _

theorem share1 (V : Entry F) : (Reg1.dat V c).share 0 = fullShare.left ∧ (Reg1.dat V c).share 1 = fullShare
    ∧ (Reg1.dat V c).share 2 = fullShare.right ∧ (Reg1.dat V c).share 3 = fullShare := by
  obtain ⟨h0, h2, h1, h3⟩ := Reg1.dat_q V c
  unfold Pipeline.Dat.share
  exact ⟨(if_neg (by decide)).trans h0, (if_neg (by decide)).trans h1, (if_neg (by decide)).trans h2, if_pos (by decide)⟩

theorem arrays1_eq (V : Entry F) (G : (w : Fin cfg1.W) → Buf (Elt F) ((cfg1.win w).arr.view.loc (c.tc : Thread nD τ))) :
    ((Reg1.dat V c).arrays G : sProp 𝕄)
      = iprop((((c : Thread nD τ).loc main_v17) ↦{fullShare.left} G 0) ∗ (((c : Thread nD τ).loc main_v16) ↦{fullShare} G 1)
          ∗ (((c : Thread nD τ).loc main_v17) ↦{fullShare.right} G 2) ∗ (((c : Thread nD τ).loc main_v18) ↦{fullShare} G 3)) := by
  obtain ⟨s0, s1, s2, s3⟩ := share1 c V
  unfold Pipeline.Dat.arrays
  rw [bigSep_W1, (arr_whole1 0).set_eq_univ, (arr_whole1 1).set_eq_univ, (arr_whole1 3).set_eq_univ, s0, s1, s2, s3]

/-- A full share is its left and right halves: region 1's arrays at contents read off `W` are the three buffers behind them, each whole at `W`. -/
theorem arrays1 (V : Entry F) (W : (b : Ref sig .tc) → Buf (Elt F) ((c : Thread nD τ).loc b))
    (G : (w : Fin cfg1.W) → Buf (Elt F) ((cfg1.win w).arr.view.loc (c.tc : Thread nD τ)))
    (h0 : G 0 = W main_v17) (h1 : G 1 = W main_v16) (h2 : G 2 = W main_v17) (h3 : G 3 = W main_v18) :
    ((Reg1.dat V c).arrays G : sProp 𝕄) ⊣⊢ Pipeline.arrBufs spec1 c W := by
  rw [arrBufs1_eq, arrays1_eq, h0, h1, h2, h3]
  constructor
  · iintro ⟨Hl, H16, Hr, H18⟩
    ihave H17 := (pointsTo_share (PosShare.mem_left_op_right fullShare)).2 $$ [Hl Hr]
    · isplitl [Hl] <;> iassumption
    isplitl [H17]; · iexact H17
    isplitl [H16] <;> iassumption
  · iintro ⟨H17, H16, H18⟩
    ihave H17 := (pointsTo_share (PosShare.mem_left_op_right fullShare)).1 $$ H17
    icases H17 with ⟨Hl, Hr⟩
    isplitl [Hl]; · iexact Hl
    isplitl [H16]; · iexact H16
    isplitl [Hr] <;> iassumption

theorem arrAt1_last_out : (Reg1.dat (entryV3 m) c).arrAt 3 cfg1.N = V4 m (outs m) c main_v18 := by
  unfold V4
  rw [Function.update_self, outs_4_main_v18]

theorem exit1_rest :
    (Pipeline.unscopedRest spec1 c (fun b => V4 m (outs m) c b) : sProp 𝕄)
      = Pipeline.unscopedRest spec1 c (entryV3 m c) := by
  unfold Pipeline.unscopedRest
  exact bigSep_congr fun b hb => by
    dsimp only
    rw [V4_of m (outs m) c b (not_mem_of_arrs spec1 _ (by decide) (Finset.mem_sdiff.mp hb).2)]

end Region1

set_option backward.isDefEq.respectTransparency.types false in
def R1 : Seg m 1 :=
  seg m 1 winFacts₀1 block_pos1 stage_whole1 (V3 m (outs m)) (V4 m (outs m))
    (Reg1.body_obligation _) (Reg1.dat_owed _) (Reg1.dat_recorded _ · 0) (Reg1.hin _) (Reg1.hout _)
    (fun c => Pipeline.unscopedRest spec1 c (entryV3 m c))
    (fun c => by
      rw [Pipeline.unscopedBufs_split₀ (Pipeline.pin (pcfgs (F := F)) adm) 1 winFacts₀1.arr_unscoped c]
      exact sep_mono (arrays1 c (entryV3 m) (entryV3 m c) _ (Reg1.dat_A _ c 0) (Reg1.dat_A _ c 1) (Reg1.dat_A _ c 2) (Reg1.dat_A _ c 3)).2 .rfl)
    (fun c => by
      rw [Pipeline.unscopedBufs_split₀ (Pipeline.pin (pcfgs (F := F)) adm) 1 winFacts₀1.arr_unscoped c]
      exact BI.sep_mono (arrays1 c (entryV3 m) (fun b => V4 m (outs m) c b) _
        (((Reg1.dat _ c).arrAt_in 0 rfl _).trans ((Reg1.dat_A _ c 0).trans (V4_of m (outs m) c main_v17 (by decide)).symm))
        (((Reg1.dat _ c).arrAt_in 1 rfl _).trans ((Reg1.dat_A _ c 1).trans (V4_of m (outs m) c main_v16 (by decide)).symm))
        (((Reg1.dat _ c).arrAt_in 2 rfl _).trans ((Reg1.dat_A _ c 2).trans (V4_of m (outs m) c main_v17 (by decide)).symm))
        (arrAt1_last_out m c)).1 (Entails.of_eq (exit1_rest m c).symm))

theorem exit2_arr (c : Dev nD) : ∀ w : Fin cfg2.W,
    (Reg2.dat (entryV5 m) c).arrAt w cfg2.N = V6 m (outs m) c (Pipeline.arrRef spec2 w)
  | 0 => ((Reg2.dat (entryV5 m) c).arrAt_in 0 rfl _).trans
      ((Reg2.dat_A (entryV5 m) c 0).trans (V6_of m (outs m) c main_v19 (by decide)).symm)
  | 1 => ((Reg2.dat (entryV5 m) c).arrAt_in 1 rfl _).trans
      ((Reg2.dat_A (entryV5 m) c 1).trans (V6_of m (outs m) c main_v14 (by decide)).symm)
  | 2 => by
    show _ = V6 m (outs m) c main_v20_0
    unfold V6
    rw [Function.update_of_ne (StableHlo.devRef_ne_of_ne (by decide)), Function.update_self, outs_6_main_v20_0]
  | 3 => by
    show _ = V6 m (outs m) c main_v20_1
    unfold V6
    rw [Function.update_self, outs_6_main_v20_1]
  | ⟨_ + 4, h⟩ => absurd h (Nat.not_lt.2 (Nat.le_add_left _ _))

set_option backward.isDefEq.respectTransparency.types false in
def R2 : Seg m 2 :=
  seg m 2 launch2.win.to₀ launch2.block_pos launch2.stage_whole (V5 m (outs m)) (V6 m (outs m))
    (Reg2.body_obligation _) (Reg2.dat_owed _) (Reg2.dat_recorded _ · 0) (Reg2.hin _) (Reg2.hout _)
    (fun c => Pipeline.unscopedRest spec2 c (entryV5 m c))
    (fun c => Pipeline.arrays_of_unscopedBufs (p := 2) _ _ (pdats m) launch2.win launch2.arr_whole c
      ((pdats m 2 c).share_full (Reg2.dat_q (entryV5 m) c)) (entryV5 m c) (Reg2.dat_A (entryV5 m) c))
    (fun c => Pipeline.unscopedBufs_of_arrays (p := 2) _ _
      launch2.win launch2.arr_whole c (pdats m) ((pdats m 2 c).share_full (Reg2.dat_q (entryV5 m) c))
      (entryV5 m c) (fun b => V6 m (outs m) c b) ((pdats m 2 c).arrAt · cfg2.N) (exit2_arr m c)
      fun b hb => V6_of m (outs m) c b (not_mem_of_arrs spec2 _ (by decide) hb))

set_option backward.isDefEq.respectTransparency.types false in
theorem run_values (ρ : Dev nD → PrngReg) :
    θ_run defs (onTc (τ := τ) (main (F := F))) ⟨m, fun _ => 0, ρ⟩ (fun r => ∀ c : Dev nD,
      r.2.mem ((c.tc : Thread nD τ).loc main_v20_0) = V9 m (outs m) c main_v20_0
      ∧ r.2.mem ((c.tc : Thread nD τ).loc main_v25) = V9 m (outs m) c main_v25
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm (pdats m) () cellOf_inj (emb₁ : Emb _ 𝕄) defs₀ Variants.none L lv m ρ main
    (segs m (outs m) Variants.none L lv (fun _ => R) () (pdats m) (R0 m) (R1 m) (R2 m))
    (fun c Q => by rewrite [main_chain c, Pipeline.Seg.run_eq_chain]; exact .rfl)
    (fun c => by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by rw [BI.bigSep_emp_const, ownU_emb₁]; iintro Hu; imodintro; isplitl [Hu]; · iexact Hu
               iempintro)
    (T₀ := fun c => iprop(StableHlo.held c.tc (Pipeline.ucRefs τ sig) (V0 m c) ∗ R c))
    (Tₙ := fun c => StableHlo.held c.tc (Pipeline.ucRefs τ sig) (V9 m (outs m) c))
    (hch := fun c => ⟨.rfl, .rfl, .rfl, .rfl, .rfl, .rfl, .rfl, .rfl, .rfl,
      sep_mono .rfl (by iintro ⟨-, Howes⟩; iexact Howes)⟩)
    (hinit := Pipeline.initEach L lv fun c => ?_) (hfin := fun c s' => ?_) (hQ := fun _ h => h)
  · rw [show unscopedBufs c (fun b => m (c.tc.loc b)) = StableHlo.held c.tc (Pipeline.ucRefs τ sig) (V0 m c)
      from Pipeline.unscopedBufs_held c (V0 m c)]
    iintro ⟨⟨Hheld, -, Howes, -, Hprng, -⟩, -⟩
    imodintro
    isplitl [Hheld]; · iexact Hheld
    isplitl [Hprng]; · iexists _; iexact Hprng
    iexists ∅
    iexact Howes
  · unfold StableHlo.held
    iintro ⟨Hheld, HSI⟩
    ihave Hread := (pointsTo_read_all (Pipeline.ucRefs τ sig) (fun b => (c.tc.1, b)) (V9 m (outs m) c) s') $$ [Hheld HSI]
    · isplitl [Hheld] <;> iassumption
    icases Hread with ⟨%h, HSI⟩
    imodintro
    isplitr
    · ipureintro
      have rd : ∀ r : Ref sig .tc, ¬ (Proc.devRef .tc r : DevRef τ sig).isScoped → _ := fun r hr =>
        h (Proc.devRef .tc r) (Finset.mem_filter.mpr ⟨StableHlo.devRef_mem_tcRefs r, hr⟩)
      exact ⟨rd main_v20_0 (by decide), rd main_v25 (by decide),
        (rd main_arg0 (by decide)).trans (V9_main_arg0 m (outs m) c),
        (rd main_arg1 (by decide)).trans (V9_main_arg1 m (outs m) c),
        (rd main_arg2 (by decide)).trans (V9_main_arg2 m (outs m) c),
        (rd main_arg3 (by decide)).trans (V9_main_arg3 m (outs m) c),
        (rd main_arg4 (by decide)).trans (V9_main_arg4 m (outs m) c),
        (rd main_arg5 (by decide)).trans (V9_main_arg5 m (outs m) c),
        (rd main_arg6 (by decide)).trans (V9_main_arg6 m (outs m) c),
        (rd main_arg7 (by decide)).trans (V9_main_arg7 m (outs m) c)⟩
    · iexact HSI

/-- The frame is the run's values, less the two results. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2.2) (run_values m ρ)

end Cert.Kernel.Run

end
-- ==== Proof.KI.Common.lean ====
import proofs.«419445_j27642409517469_3_alg».proof.Proof.Gen.KernelIdeal.Launch
import Idealize.ShloMosaic.Lib.Pipeline.Kit

noncomputable section

namespace Cert.KernelIdeal

open Idealize.ShloMosaic Idealize.ShloMosaic.TcCoe Idealize.SL.Sem

abbrev Entry (F : FTy → Type) : Type :=
  (c : Dev nD) → (b : Ref sig .tc) → Buf (Elt F) ((c : Thread nD τ).loc b)

end Cert.KernelIdeal

end
-- ==== Proof.KI.Reg0.lean ====
import proofs.«419445_j27642409517469_3_alg».proof.Proof.Gen.KernelIdeal.Skeleton
import proofs.«419445_j27642409517469_3_alg».proof.Proof.Gen.KernelIdeal.Points
import Idealize.ShloMosaic.Lib.Pipeline.FrameBody
import Idealize.ShloMosaic.Lib.Tactic
import proofs.«419445_j27642409517469_3_alg».proof.Proof.KI.Common

noncomputable section

namespace Cert.KernelIdeal.Reg0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F] [Named F]

local notation "𝕄" => MT nD τ sig Unit (Elt F) ℕ (UR sig nD τ) ℕ

def blk (V : Entry F) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev full : Rect S1024x1024 := Rect.unit (s := S1024x1024) ![0, 0] S1024x1024.size inb_S1024x1024_S1024x1024_0_0

def outK (x wk : Vec F S1024x1024 .bf16) : Vec F S1024x1024 .bf16 :=
  View.canon [⟨full, k0_pay2 (View.ld x full) (View.ld wk full)⟩]

def outQ (x wq : Vec F S1024x1024 .bf16) : Vec F S1024x1024 .bf16 :=
  View.canon [⟨full, k0_pay3 (View.ld x full) (View.ld wq full)⟩]

/-- The two projections: each output is the product of the activations with its weight. -/
theorem run_kernel (c : Dev nD) (E : Set ℕ) (i : grid0.Coords)
    (a1 a2 a3 a4 a5 : Memref sig .tc .vmem S1024x1024 .bf16) (h1 : a1.IsWhole) (h2 : a2.IsWhole) (h3 : a3.IsWhole) (h4 : a4.IsWhole) (h5 : a5.IsWhole)
    (x wk wq y4 y5 : Vec F S1024x1024 .bf16) (K : PUnit → sProp 𝕄) :
    iprop(owns c.tc a1 fullShare x ∗ owns c.tc a2 fullShare wk ∗ owns c.tc a3 fullShare wq
        ∗ owns c.tc a4 fullShare y4 ∗ owns c.tc a5 fullShare y5
        ∗ (iprop(owns c.tc a1 fullShare x ∗ owns c.tc a2 fullShare wk ∗ owns c.tc a3 fullShare wq
            ∗ owns c.tc a4 fullShare (outK x wk) ∗ owns c.tc a5 fullShare (outQ x wq)) -∗ K ⟨⟩))
      ⊢ wp frame (wpE (defs₀ (F := F)) Variants.none c none) E (cc0__proj_kernel i a1 h1 a2 h2 a3 h3 a4 h4 a5 h5) K := by
  simp only [cc0__proj_kernel_eq_skeleton]; unfold cc0__proj_kernel_skel
  unfold owns
  iintro ⟨⟨%f1, %e1, H1⟩, ⟨%f2, %e2, H2⟩, ⟨%f3, %e3, H3⟩, ⟨%f4, -, H4⟩, ⟨%f5, -, H5⟩, Hk⟩
  subst e1 e2 e3
  sl_exec!
  sl_step
  iapply Hk
  isplitl [H1]; rotate_left
  isplitl [H2]; rotate_left
  isplitl [H3]; rotate_left
  isplitl [H4]; rotate_left
  all_goals
    iexists _; isplitr; swap; iassumption
    ipureintro
    first | exact View.read_writes_junk_eq_canon _ _ | rfl

def dat (V : Entry F) (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => outK (blk V c 0 t) (blk V c 1 t)
    | ⟨4, _⟩ => outQ (blk V c 0 t) (blk V c 2 t)
  Φ _ := Pipeline.ΦA spec0 c
  q _ := fullShare
  owed _ := 0

theorem dat_A (V : Entry F) (c : Dev nD) (w : Fin cfg0.W) : (dat V c).A w = V c (Pipeline.arrRef spec0 w) := rfl

theorem dat_q (V : Entry F) (c : Dev nD) (w : Fin cfg0.W) : (dat V c).q w = fullShare := rfl

theorem dat_owed (V : Entry F) (c : Dev nD) (t : Fin (cfg0.N + 1)) : (dat V c).owed t = 0 := rfl

theorem dat_recorded (V : Entry F) (c : Dev nD) (t : Fin (cfg0.N + 1)) : (dat V c).recorded t = Set.univ := rfl

theorem after_3 (V : Entry F) (c : Dev nD) (t : Fin cfg0.N) :
    (dat V c).after 3 t = outK (blk V c 0 t) (blk V c 1 t) := by dsimp only [dat]
theorem after_4 (V : Entry F) (c : Dev nD) (t : Fin cfg0.N) :
    (dat V c).after 4 t = outQ (blk V c 0 t) (blk V c 2 t) := by dsimp only [dat]

theorem before_0 (V : Entry F) (c : Dev nD) (t : Fin cfg0.N) (d) : (dat V c).before 0 t d = blk V c 0 t :=
  ((dat V c).before_in_eq_fetched 0 rfl (fun _ => rfl) (fun _ _ _ => rfl) (fun _ => rfl) t d).trans rfl

theorem before_1 (V : Entry F) (c : Dev nD) (t : Fin cfg0.N) (d) : (dat V c).before 1 t d = blk V c 1 t :=
  ((dat V c).before_in_eq_fetched 1 rfl (fun _ => rfl) (fun _ _ _ => rfl) (fun _ => rfl) t d).trans rfl

theorem before_2 (V : Entry F) (c : Dev nD) (t : Fin cfg0.N) (d) : (dat V c).before 2 t d = blk V c 2 t :=
  ((dat V c).before_in_eq_fetched 2 rfl (fun _ => rfl) (fun _ _ _ => rfl) (fun _ => rfl) t d).trans rfl

theorem body_obligation (V : Entry F) (c : Dev nD) : BodyObligation (dat V c) (defs₀ (F := F)) Variants.none () Set.univ := fun t => by
  rw [bigSep_W0, bigSep_W0]
  show _ ⊢ wp _ _ _ (bodyAt0 t) fun _ =>
      iprop((dat V c).Φ t.castSucc ∗ (dat V c).owesAt () t.castSucc
        ∗ owns c.tc (st0_0 t) fullShare (blk V c 0 t) ∗ owns c.tc (st0_1 t) fullShare (blk V c 1 t)
        ∗ owns c.tc (st0_2 t) fullShare (blk V c 2 t)
        ∗ owns c.tc (st0_3 t) fullShare ((dat V c).after 3 t)
        ∗ owns c.tc (st0_4 t) fullShare ((dat V c).after 4 t))
  simp only [before_0, before_1, before_2, after_3, after_4]
  iintro ⟨HΦ, Ho, ⟨%d0, H0⟩, ⟨%d1, H1⟩, ⟨%d2, H2⟩, ⟨%d3, H3⟩, ⟨%d4, H4⟩⟩
  iapply (run_kernel c Set.univ _ (st0_0 t) (st0_1 t) (st0_2 t) (st0_3 t) (st0_4 t) _ _ _ _ _ (blk V c 0 t) (blk V c 1 t) (blk V c 2 t) _ _ _)
  iframe H0 H1 H2 H3 H4
  iintro ⟨H0, H1, H2, H3, H4⟩
  iframe HΦ Ho H0 H1 H2 H3 H4

theorem hin (V : Entry F) (c : Dev nD) : iprop((∃ r, prngReg c r) ∗ Pipeline.scopedRest (Ix := Unit) (Name := ℕ) (U := UR sig nD τ) (Lvl := ℕ) (Val := Elt F) spec0 c)
    ⊢ ((dat V c).Φ 0 : sProp 𝕄) := Laws.sep_comm.1

theorem hout (V : Entry F) (c : Dev nD) : ((dat V c).Φ (Fin.last cfg0.N) : sProp 𝕄)
    ⊢ iprop((∃ r, prngReg c r) ∗ Pipeline.scopedRest (Ix := Unit) (Name := ℕ) (U := UR sig nD τ) (Lvl := ℕ) (Val := Elt F) spec0 c) := Laws.sep_comm.1

end Cert.KernelIdeal.Reg0

end
-- ==== Proof.KI.Reg1State.lean ====
import proofs.«419445_j27642409517469_3_alg».proof.Proof.Gen.KernelIdeal.Skeleton
import proofs.«419445_j27642409517469_3_alg».proof.Proof.Gen.KernelIdeal.Points
import Idealize.ShloMosaic.Lib.Pipeline.FrameBody
import Idealize.ShloMosaic.Lib.Tactic
import proofs.«419445_j27642409517469_3_alg».proof.Proof.KI.Common

noncomputable section

namespace Cert.KernelIdeal.Reg1

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.KernelIdeal Cert.KernelIdeal.Gen

variable {F : FTy → Type} [FloatOps F] [Named F]

local notation "𝕄" => MT nD τ sig Unit (Elt F) ℕ (UR sig nD τ) ℕ

abbrev Blk (F : FTy → Type) : Type := Vec F S1x512x1024 .bf16

def iblk (V : Entry F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

structure St (F : FTy → Type) where
  m : Vec F S512x1 .f32
  l : Vec F S512x1 .f32
  acc : Vec F S512x1024 .f32

def St.reset : St F := ⟨k1_pay1 (F := F), k1_pay2 (F := F), k1_pay3 (F := F)⟩

def St.upd (qi ki : BitVec 32) (q k v : Blk F) (s : St F) : St F where
  m := k1_pay6 (k1_pay10 qi ki q k s.m)
  l := k1_pay4 (k1_pay13 qi ki q k s.m s.m s.l)
  acc := k1_pay5 (k1_pay8 v) (k1_pay11 qi ki q k s.m s.m) (k1_pay12 qi ki q k s.m) s.acc

def St.pre (t : Fin cfg1.N) (s : St F) : St F := if t.val % 4 = 0 then St.reset else s

def stepAt (V : Entry F) (c : Dev nD) (t : Fin cfg1.N) (s : St F) : St F :=
  if t.val % 4 ≤ t.val / 4 % 4 then
    St.upd (BitVec.ofNat 32 (grid1.coords t 1).val) (BitVec.ofNat 32 (grid1.coords t 2).val) (iblk V c 0 t) (iblk V c 1 t) (iblk V c 2 t) (St.pre t s)
  else St.pre t s

def stAfter (V : Entry F) (c : Dev nD) : (n : ℕ) → n < cfg1.N → St F
  | 0, h => stepAt V c ⟨0, h⟩ St.reset
  | n + 1, h => stepAt V c ⟨n + 1, h⟩ (stAfter V c n (Nat.lt_of_succ_lt h))

/-- A point that resets ignores the state it is handed, so any state that is the previous point's after the first will do. -/
theorem stAfter_step (V : Entry F) (c : Dev nD) (t : Fin cfg1.N) (s : St F)
    (hs : ∀ hz : t.val ≠ 0, s = stAfter V c (t.val - 1) (by omega)) : stAfter V c t.val t.isLt = stepAt V c t s := by
  obtain ⟨_ | n, hn⟩ := t
  · rfl
  · rw [hs (Nat.succ_ne_zero n)]; rfl

def outAt (V : Entry F) (c : Dev nD) (t : Fin cfg1.N) : Blk F :=
  k1_pay7 (stAfter V c t.val t.isLt).acc (stAfter V c t.val t.isLt).l

def scr (c : Dev nD) (s : St F) : sProp 𝕄 :=
  iprop(owns c.tc (Memref.whole cc1_scratch0) fullShare s.m ∗ owns c.tc (Memref.whole cc1_scratch1) fullShare s.l ∗ owns c.tc (Memref.whole cc1_scratch2) fullShare s.acc)

abbrev restBut (c : Dev nD) : sProp 𝕄 :=
  Pipeline.scopedRestBut (Ix := Unit) (Name := ℕ) (U := UR sig nD τ) (Lvl := ℕ) (Val := Elt F) spec1 c [cc1_scratch0, cc1_scratch1, cc1_scratch2]

/-- Between points the scratch buffers hold some state, after the first point the one the point before left. -/
def Phi (V : Entry F) (c : Dev nD) (n : ℕ) (h : n ≤ cfg1.N) : sProp 𝕄 :=
  iprop((∃ r, prngReg c r) ∗ (∃ s : St F, ⌜∀ hz : n ≠ 0, s = stAfter V c (n - 1) (by omega)⌝ ∗ scr c s) ∗ restBut (F := F) c)

def dat (V : Entry F) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := Phi V c t.val (Nat.le_of_lt_succ t.isLt)
  q w := match w with
    | ⟨0, _⟩ => fullShare.left
    | ⟨1, _⟩ => fullShare
    | ⟨2, _⟩ => fullShare.right
    | ⟨3, _⟩ => fullShare
  owed _ := 0

theorem dat_Φ (V : Entry F) (c : Dev nD) (p : Fin (cfg1.N + 1)) : (dat V c).Φ p = Phi V c p.val (Nat.le_of_lt_succ p.isLt) := rfl

theorem dat_A (V : Entry F) (c : Dev nD) (w : Fin cfg1.W) : (dat V c).A w = V c (Pipeline.arrRef spec1 w) := rfl

theorem dat_q (V : Entry F) (c : Dev nD) : (dat V c).q 0 = fullShare.left ∧ (dat V c).q 2 = fullShare.right ∧ (dat V c).q 1 = fullShare ∧ (dat V c).q 3 = fullShare := ⟨rfl, rfl, rfl, rfl⟩

theorem dat_owed (V : Entry F) (c : Dev nD) (t : Fin (cfg1.N + 1)) : (dat V c).owed t = 0 := rfl

theorem dat_recorded (V : Entry F) (c : Dev nD) (t : Fin (cfg1.N + 1)) : (dat V c).recorded t = Set.univ := rfl

theorem after_3 (V : Entry F) (c : Dev nD) (t : Fin cfg1.N) : (dat V c).after 3 t = outAt V c t := rfl

end Cert.KernelIdeal.Reg1

end
-- ==== Proof.KI.Reg1.lean ====
import proofs.«419445_j27642409517469_3_alg».proof.Proof.KI.Reg1State
import Idealize.ShloMosaic.Lib.Pipeline.Value

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F] [Named F]

local notation "𝕄" => MT nD τ sig Unit (Elt F) ℕ (UR sig nD τ) ℕ

abbrev cond1 (i : grid1.Coords) : Prop := (Scalar.cmpi .ne (Scalar.extui (Scalar.cmpi .eq (BitVec.ofNat 32 (i 2).val) 0#32)) 0#32) = 1#1
theorem hcond1 : ∀ t : Fin cfg1.N, cond1 (grid1.coords t) ↔ t.val % 4 = 0 := by decide +kernel
abbrev cond2 (i : grid1.Coords) : Prop := (Scalar.cmpi .ne (Scalar.extui (Scalar.cmpi .sle (Scalar.muli (BitVec.ofNat 32 (i 2).val) 512#32) (Scalar.addi (Scalar.muli (BitVec.ofNat 32 (i 1).val) 512#32) 511#32))) 0#32) = 1#1
theorem hcond2 : ∀ t : Fin cfg1.N, cond2 (grid1.coords t) ↔ t.val % 4 ≤ t.val / 4 % 4 := by decide +kernel
abbrev cond3 (i : grid1.Coords) : Prop := k1_cond3 i = 1#1
theorem hcond3 : ∀ t : Fin cfg1.N, (cond3 (grid1.coords t) → cfg1.idle 3 (grid1.coords t) = false)
    ∧ (¬cond3 (grid1.coords t) → cfg1.idle 3 (grid1.coords t) = true ∧ (cfg1.win 3).flush t = false) := by decide +kernel

theorem hz2 : (![0, 0] : Fin 2 → Nat) = fun _ => 0 := funext fun a => by fin_cases a <;> rfl
theorem hz3 : (![0, 0, 0] : Fin 3 → Nat) = fun _ => 0 := funext fun a => by fin_cases a <;> rfl

theorem read_writes_unit_zero {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e; exact e

/-- The state the body leaves from `s`: reset at the first key tile, then the tile folded in unless it lies above the diagonal. -/
def post (i : grid1.Coords) (q k v : Blk F) (s : St F) : St F :=
  if cond2 i then St.upd (BitVec.ofNat 32 (i 1).val) (BitVec.ofNat 32 (i 2).val) q k v (if cond1 i then St.reset else s)
  else if cond1 i then St.reset else s

theorem stepAt_eq (V : Entry F) (c : Dev nD) (t : Fin cfg1.N) (s : St F) :
    stepAt V c t s = post (grid1.coords t) ((dat V c).after 0 t) ((dat V c).after 1 t) ((dat V c).after 2 t) s := by
  simp only [stepAt, St.pre, post, hcond1, hcond2]; rfl

/-- Whichever way its three conditionals go, the body leaves the scratch buffers at `post` of their state and, at the last key tile, the output block at numerator over denominator of that. -/
theorem run (c : Dev nD) (i : grid1.Coords) (arg3 arg4 arg5 arg6 : Memref sig .tc .vmem S1x512x1024 .bf16) (arg7 arg8 : Memref sig .tc .vmem S512x1 .f32)
    (arg9 : Memref sig .tc .vmem S512x1024 .f32) (harg3 : arg3.IsWhole) (harg4 : arg4.IsWhole) (harg5 : arg5.IsWhole) (harg6 : arg6.IsWhole)
    (harg7 : arg7.IsWhole) (harg8 : arg8.IsWhole) (harg9 : arg9.IsWhole) (q k v xo : Blk F) (s : St F) (K : PUnit → sProp 𝕄) :
    iprop((owns c.tc arg3 fullShare q ∗ owns c.tc arg4 fullShare k ∗ owns c.tc arg5 fullShare v
          ∗ owns c.tc arg6 fullShare xo
          ∗ owns c.tc arg7 fullShare s.m ∗ owns c.tc arg8 fullShare s.l ∗ owns c.tc arg9 fullShare s.acc)
        ∗ (iprop(owns c.tc arg3 fullShare q ∗ owns c.tc arg4 fullShare k ∗ owns c.tc arg5 fullShare v
            ∗ owns c.tc arg6 fullShare (if cond3 i then k1_pay7 (post i q k v s).acc (post i q k v s).l else xo)
            ∗ owns c.tc arg7 fullShare (post i q k v s).m
            ∗ owns c.tc arg8 fullShare (post i q k v s).l
            ∗ owns c.tc arg9 fullShare (post i q k v s).acc) -∗ K ⟨⟩))
      ⊢ wp frame (wpE (defs₀ (F := F)) Variants.none c none) Set.univ (cc1__attn_kernel i arg3 harg3 arg4 harg4 arg5 harg5 arg6 harg6 arg7 harg7 arg8 harg8 arg9 harg9) K := by
  obtain ⟨m0, l0, a0⟩ := s
  by_cases hc1 : cond1 i <;> by_cases hc2 : cond2 i <;> by_cases hc3 : cond3 i <;>
  ( simp only [post, cond1, cond2, cond3, hc1, hc2, hc3, ↓reduceIte, cc1__attn_kernel_eq_skeleton]; unfold cc1__attn_kernel_skel owns
    iintro ⟨⟨⟨%f3, %hf3, H3⟩, ⟨%f4, %hf4, H4⟩, ⟨%f5, %hf5, H5⟩, ⟨%f6, %hf6, H6⟩, ⟨%f7, %hf7, H7⟩, ⟨%f8, %hf8, H8⟩, %f9, %hf9, H9⟩, Hk⟩
    subst hf3 hf4 hf5 hf6 hf7 hf8 hf9
    sl_exec
    sl_step
    iapply Hk
    isplitl [H3]; swap; isplitl [H4]; swap; isplitl [H5]; swap; isplitl [H6]; swap; isplitl [H7]; swap; isplitl [H8]; swap
    all_goals
      iexists _; isplitr; swap; iassumption
      ipureintro
      first
      | with_reducible rfl
      | sl_unfold_run_names
        first | rw [read_writes_unit_zero _ _ hz2] | rw [read_writes_unit_zero _ _ hz3]
        simp only [View.readCov_cons_toLoadRect, View.readAt_eq_ld, View.ld_unit_zero (S := S512x1) hz2, View.ld_unit_zero (S := S512x1024) hz2,
          View.ld_unit_zero (S := S1x512x1024) hz3, St.upd, St.reset] )

theorem before_in (V : Entry F) (c : Dev nD) (w : Fin cfg1.W) (hw : w ≠ 3) (t : Fin cfg1.N) (d) : (dat V c).before w t d = (dat V c).after w t := by
  fin_cases w <;> first
    | exact absurd rfl hw
    | exact (dat V c).before_in_eq_fetched _ rfl (fun _ => rfl) (fun _ _ _ => rfl) (fun _ => rfl) t d

theorem leaves_3 (V : Entry F) (c : Dev nD) (t : Fin cfg1.N) (d) :
    owns c.tc (st1_3 t) fullShare (if cond3 (grid1.coords t) then outAt V c t else (dat V c).before 3 t d) ⊢ ((dat V c).leavesExact 3 t : sProp 𝕄) := by
  by_cases h : cond3 (grid1.coords t)
  · rw [if_pos h, ← after_3]; unfold Dat.leavesExact; rw [(hcond3 t).1 h] <;> exact .rfl
  · rw [if_neg h, Dat.leavesExact_idle _ 3 t ((hcond3 t).2 h).1 ((hcond3 t).2 h).2]; iintro H; iexists d; iexact H

theorem body_obligation (V : Entry F) (c : Dev nD) : BodyObligation (dat V c) (defs₀ (F := F)) Variants.none () Set.univ := fun t => by
  rw [bigSep_W1, bigSep_W1, dat_Φ, dat_Φ]
  show _ ⊢ wp _ _ _ (bodyAt1 t) _
  unfold bodyAt1 Phi scr
  simp (disch := decide) only [before_in]
  iintro ⟨⟨Hg, ⟨%s, %hs, S0, S1, S2⟩, HB⟩, Ho, ⟨%d0, H0⟩, ⟨%d1, H1⟩, ⟨%d2, H2⟩, ⟨%d3, H3⟩⟩
  have e := (stAfter_step V c t s hs).trans (stepAt_eq V c t s)
  iapply (run c (grid1.coords t) _ _ _ _ _ _ _ _ _ _ _ _ _ _ ((dat V c).after 0 t) ((dat V c).after 1 t) ((dat V c).after 2 t) ((dat V c).before 3 t d3) s _)
  isplitl [H0 H1 H2 H3 S0 S1 S2]; · iframe
  iintro ⟨H0, H1, H2, H3, S0, S1, S2⟩
  isplitl [Hg HB S0 S1 S2]
  · iframe Hg HB
    iexists _; iframe S0 S1 S2
    ipureintro; exact fun _ => e.symm
  isplitl [Ho]; · iexact Ho
  iframe H0 H1 H2
  iapply (leaves_3 V c t d3)
  unfold outAt; rw [e]; iexact H3

theorem rest_split (c : Dev nD) :
    (Pipeline.scopedRest (Ix := Unit) (Name := ℕ) (U := UR sig nD τ) (Lvl := ℕ) (Val := Elt F) spec1 c : sProp 𝕄)
      = iprop(((∃ f, c.tc.loc cc1_scratch0 ↦{fullShare} f) ∗ (∃ f, c.tc.loc cc1_scratch1 ↦{fullShare} f) ∗ (∃ f, c.tc.loc cc1_scratch2 ↦{fullShare} f)) ∗ restBut (F := F) c) :=
  Pipeline.scopedRest_split_of_list spec1 c [cc1_scratch0, cc1_scratch1, cc1_scratch2] (by decide) (by decide)

theorem hin (V : Entry F) (c : Dev nD) : iprop((∃ r, prngReg c r) ∗ Pipeline.scopedRest (Ix := Unit) (Name := ℕ) (U := UR sig nD τ) (Lvl := ℕ) (Val := Elt F) spec1 c)
    ⊢ ((dat V c).Φ 0 : sProp 𝕄) := by
  rw [rest_split, dat_Φ]; unfold Phi scr; simp only [owns_whole]
  iintro ⟨Hg, ⟨⟨%d0, S0⟩, ⟨%d1, S1⟩, ⟨%d2, S2⟩⟩, HB⟩
  iframe Hg HB
  iexists ⟨d0, d1, d2⟩; iframe
  ipureintro; exact fun hz => absurd rfl hz

theorem hout (V : Entry F) (c : Dev nD) : ((dat V c).Φ (Fin.last cfg1.N) : sProp 𝕄)
    ⊢ iprop((∃ r, prngReg c r) ∗ Pipeline.scopedRest (Ix := Unit) (Name := ℕ) (U := UR sig nD τ) (Lvl := ℕ) (Val := Elt F) spec1 c) := by
  rw [rest_split, dat_Φ]; unfold Phi scr; simp only [owns_whole]
  iintro ⟨Hg, ⟨%s, -, S0, S1, S2⟩, HB⟩
  iframe Hg HB
  isplitl [S0]; · iexists _; iexact S0
  isplitl [S1]; · iexists _; iexact S1
  iexists _; iexact S2

end Cert.KernelIdeal.Reg1

end
-- ==== Proof.KI.Reg2State.lean ====
import proofs.«419445_j27642409517469_3_alg».proof.Proof.Gen.KernelIdeal.Skeleton
import proofs.«419445_j27642409517469_3_alg».proof.Proof.Gen.KernelIdeal.Points
import Idealize.ShloMosaic.Lib.Pipeline.FrameBody
import Idealize.ShloMosaic.Lib.Tactic
import proofs.«419445_j27642409517469_3_alg».proof.Proof.KI.Common

noncomputable section

namespace Cert.KernelIdeal.Reg2

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.KernelIdeal Cert.KernelIdeal.Gen

variable {F : FTy → Type} [FloatOps F] [Named F]

local notation "𝕄" => MT nD τ sig Unit (Elt F) ℕ (UR sig nD τ) ℕ

def iblk (V : Entry F) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

abbrev St (F : FTy → Type) : Type := Vec F S2048x1 .f32 × Vec F S2048x1 .f32

def st0 : St F := (k2_pay2 (F := F), k2_pay3 (F := F))

def upd (xb : Vec F S2048x1024 .bf16) (wb : Vec F S1024x640 .bf16) (s : St F) : St F :=
  (k2_pay7 xb wb s.1, k2_pay6 xb wb s.1 s.1 s.2)

def stAfter (V : Entry F) (c : Dev nD) : (n : ℕ) → n < cfg2.N → St F
  | 0, hn => upd (iblk V c 0 ⟨0, hn⟩) (iblk V c 1 ⟨0, hn⟩) st0
  | n + 1, hn => upd (iblk V c 0 ⟨n + 1, hn⟩) (iblk V c 1 ⟨n + 1, hn⟩)
      (if (n + 1) % 50 = 0 then st0 else stAfter V c n (Nat.lt_of_succ_lt hn))

theorem stAfter_first (V : Entry F) (c : Dev nD) (t : Fin cfg2.N) (h : t.val % 50 = 0) :
    stAfter V c t.val t.isLt = upd (iblk V c 0 t) (iblk V c 1 t) st0 := by
  rcases t with ⟨_ | n, hn⟩
  exacts [rfl, congrArg _ (if_pos h)]

theorem stAfter_next (V : Entry F) (c : Dev nD) (t : Fin cfg2.N) (h : ¬ t.val % 50 = 0) :
    stAfter V c t.val t.isLt = upd (iblk V c 0 t) (iblk V c 1 t)
      (stAfter V c (t.val - 1) (Nat.lt_of_le_of_lt (Nat.sub_le _ _) t.isLt)) := by
  rcases t with ⟨_ | n, hn⟩
  exacts [absurd (Nat.zero_mod _) h, congrArg _ (if_neg h)]

/-- The running pair is some pair, which past the first point is the recursion's value at the point before. -/
def Phi (V : Entry F) (c : Dev nD) (n : ℕ) (hn : n ≤ cfg2.N) : sProp 𝕄 :=
  iprop(∃ m l, ⌜∀ h : n ≠ 0, (m, l) = stAfter V c (n - 1) (by omega)⌝ ∗ (∃ r, prngReg c r)
    ∗ Pipeline.scopedRestBut spec2 c [cc2_scratch0, cc2_scratch1]
    ∗ owns c.tc (Memref.whole cc2_scratch0) fullShare m ∗ owns c.tc (Memref.whole cc2_scratch1) fullShare l)

def dat (V : Entry F) (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => k2_pay4 (iblk V c 0 t) (iblk V c 1 t)
    | ⟨3, _⟩ => k2_pay1 (stAfter V c t.val t.isLt).1 (stAfter V c t.val t.isLt).2
  Φ t := Phi V c t.val (Nat.le_of_lt_succ t.isLt)
  q _ := fullShare
  owed _ := 0

theorem dat_A (V : Entry F) (c : Dev nD) (w : Fin cfg2.W) : (dat V c).A w = V c (Pipeline.arrRef spec2 w) := rfl

theorem dat_q (V : Entry F) (c : Dev nD) (w : Fin cfg2.W) : (dat V c).q w = fullShare := rfl

theorem dat_owed (V : Entry F) (c : Dev nD) (t : Fin (cfg2.N + 1)) : (dat V c).owed t = 0 := rfl

theorem dat_recorded (V : Entry F) (c : Dev nD) (t : Fin (cfg2.N + 1)) : (dat V c).recorded t = Set.univ := rfl

theorem dat_Φ (V : Entry F) (c : Dev nD) (t : Fin (cfg2.N + 1)) : (dat V c).Φ t = Phi V c t.val (Nat.le_of_lt_succ t.isLt) := rfl

theorem after_2 (V : Entry F) (c : Dev nD) (t : Fin cfg2.N) :
    (dat V c).after 2 t = k2_pay4 (iblk V c 0 t) (iblk V c 1 t) := rfl
theorem after_3 (V : Entry F) (c : Dev nD) (t : Fin cfg2.N) :
    (dat V c).after 3 t = k2_pay1 (stAfter V c t.val t.isLt).1 (stAfter V c t.val t.isLt).2 := rfl

end Cert.KernelIdeal.Reg2

end
-- ==== Proof.KI.Reg2.lean ====
import Idealize.ShloMosaic.Lib.Pipeline.Value
import proofs.«419445_j27642409517469_3_alg».proof.Proof.KI.Reg2State

noncomputable section

namespace Cert.KernelIdeal.Reg2

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F] [Named F]

local notation "𝕄" => MT nD τ sig Unit (Elt F) ℕ (UR sig nD τ) ℕ

theorem zeros2 : (![0, 0] : Fin 2 → Nat) = fun _ => 0 := funext fun a => by fin_cases a <;> rfl

abbrev cond1 (i : grid2.Coords) : Prop :=
  (Scalar.cmpi .ne (Scalar.extui (Scalar.cmpi .eq (BitVec.ofNat 32 (i 1).val) 0#32)) 0#32) = 1#1

abbrev cond2 (i : grid2.Coords) : Prop := k2_cond2 i = 1#1

/-- The pair a point leaves: the update of the reset pair where the vocabulary coordinate is zero, else of the pair found. -/
def nxt (i : grid2.Coords) (xb : Vec F S2048x1024 .bf16) (wb : Vec F S1024x640 .bf16) (s : St F) : St F :=
  upd xb wb (if cond1 i then st0 else s)

/-- One point of the online log-sum-exp: the pair becomes `nxt`, and at the last vocabulary coordinate its log-sum-exp is the output. -/
theorem run (c : Dev nD) (E : Set ℕ) (i : grid2.Coords)
    (arg2 : Memref sig .tc .vmem S2048x1024 .bf16) (arg3 : Memref sig .tc .vmem S1024x640 .bf16) (arg4 : Memref sig .tc .vmem S2048x640 .f32)
    (arg5 arg6 arg7 : Memref sig .tc .vmem S2048x1 .f32) (harg2 : arg2.IsWhole) (harg3 : arg3.IsWhole) (harg4 : arg4.IsWhole)
    (harg5 : arg5.IsWhole) (harg6 : arg6.IsWhole) (harg7 : arg7.IsWhole)
    (hx : cond1 i → ¬ cond2 i)
    (xb : Vec F S2048x1024 .bf16) (wb : Vec F S1024x640 .bf16) (y4 : Vec F S2048x640 .f32) (y5 m l : Vec F S2048x1 .f32)
    (K : PUnit → sProp 𝕄) :
    iprop(owns c.tc arg2 fullShare xb ∗ owns c.tc arg3 fullShare wb ∗ owns c.tc arg4 fullShare y4
        ∗ owns c.tc arg5 fullShare y5 ∗ owns c.tc arg6 fullShare m ∗ owns c.tc arg7 fullShare l
        ∗ (iprop(owns c.tc arg2 fullShare xb ∗ owns c.tc arg3 fullShare wb
            ∗ owns c.tc arg4 fullShare (k2_pay4 xb wb)
            ∗ owns c.tc arg5 fullShare (if cond2 i then k2_pay1 (nxt i xb wb (m, l)).1 (nxt i xb wb (m, l)).2 else y5)
            ∗ owns c.tc arg6 fullShare (nxt i xb wb (m, l)).1 ∗ owns c.tc arg7 fullShare (nxt i xb wb (m, l)).2) -∗ K ⟨⟩))
      ⊢ wp frame (wpE (defs₀ (F := F)) Variants.none c none) E (cc2__lmhead_kernel i arg2 harg2 arg3 harg3 arg4 harg4 arg5 harg5 arg6 harg6 arg7 harg7) K := by
  unfold nxt upd st0
  by_cases h1 : cond1 i <;> by_cases h2 : cond2 i
  · exact absurd h2 (hx h1)
  all_goals
    first | rw [if_pos h1] | rw [if_neg h1]
    first | rw [if_pos h2] | rw [if_neg h2]
    simp only [cc2__lmhead_kernel_eq_skeleton]; unfold cc2__lmhead_kernel_skel
    simp only [k2_part1_eq_skeleton]; unfold k2_part1_skel
    unfold owns
    iintro ⟨⟨%f2, %hf2, H2⟩, ⟨%f3, %hf3, H3⟩, ⟨%f4, -, H4⟩, ⟨%f5, %hf5, H5⟩, ⟨%f6, %hf6, H6⟩, ⟨%f7, %hf7, H7⟩, Hk⟩
    subst hf2 hf3 hf5 hf6 hf7
    sl_exec! (disch := first | sl_exact h1 | sl_exact h2)
    sl_step
    iapply Hk
    isplitl [H2]; rotate_left
    isplitl [H3]; rotate_left
    isplitl [H4]; rotate_left
    isplitl [H5]; rotate_left
    isplitl [H6]; rotate_left
    all_goals
      iexists _; isplitr; swap; iassumption
      ipureintro; sl_unfold_run_names
      simp only [View.read_writes_junk_eq_canon, View.canon_cons_unit_zero (S := S2048x640) zeros2, View.canon_cons_unit_zero (S := S2048x1) zeros2,
        View.readAt_eq_ld, View.ld_unit_zero (S := S2048x1024) zeros2, View.ld_unit_zero (S := S1024x640) zeros2, View.ld_unit_zero (S := S2048x1) zeros2,
        View.readCov_cons_toLoadRect]

theorem hcond1 : ∀ t : Fin cfg2.N, cond1 (grid2.coords t) ↔ t.val % 50 = 0 :=
  (by decide +kernel : ∀ t : Fin grid2.N, cond1 (grid2.coords t) ↔ t.val % 50 = 0)

theorem hcond2 : ∀ t : Fin cfg2.N, cond2 (grid2.coords t) ↔ t.val % 50 = 49 :=
  (by decide +kernel : ∀ t : Fin grid2.N, cond2 (grid2.coords t) ↔ t.val % 50 = 49)

theorem before_0 (V : Entry F) (c : Dev nD) (t : Fin cfg2.N) (d) : (dat V c).before 0 t d = iblk V c 0 t :=
  ((dat V c).before_in_eq_fetched 0 rfl (fun _ => rfl) (fun _ _ _ => rfl) (fun _ => rfl) t d).trans rfl

theorem before_1 (V : Entry F) (c : Dev nD) (t : Fin cfg2.N) (d) : (dat V c).before 1 t d = iblk V c 1 t :=
  ((dat V c).before_in_eq_fetched 1 rfl (fun _ => rfl) (fun _ _ _ => rfl) (fun _ => rfl) t d).trans rfl

theorem leaves_3 (V : Entry F) (c : Dev nD) (t : Fin cfg2.N) (d) :
    owns c.tc (st2_3 t) fullShare (if cond2 (grid2.coords t) then k2_pay1 (stAfter V c t.val t.isLt).1 (stAfter V c t.val t.isLt).2 else (dat V c).before 3 t d)
      ⊢ ((dat V c).leavesExact 3 t : sProp 𝕄) := by
  have hi : cfg2.idle 3 (cfg2.grid.coords t) = !decide (cond2 (grid2.coords t)) := rfl
  by_cases h : cond2 (grid2.coords t)
  · rw [if_pos h]; unfold Dat.leavesExact
    rw [hi, decide_eq_true h, Bool.not_true, after_3]
  · rw [if_neg h, Dat.leavesExact_idle (dat V c) 3 t (by rw [hi, decide_eq_false h, Bool.not_false])
      (Bool.eq_false_iff.mpr fun hf => h ((hcond2 t).mpr ((flush2_3 t).mp hf)))]
    iintro H; iexists _; iexact H

/-- Whatever pair the invariant holds, the pair a point leaves is the recursion's. -/
theorem nxt_eq (V : Entry F) (c : Dev nD) (t : Fin cfg2.N) (s : St F)
    (hs : ∀ h : t.val ≠ 0, s = stAfter V c (t.val - 1) (Nat.lt_of_le_of_lt (Nat.sub_le _ _) t.isLt)) :
    nxt (grid2.coords t) (iblk V c 0 t) (iblk V c 1 t) s = stAfter V c t.val t.isLt := by
  unfold nxt
  by_cases h : t.val % 50 = 0
  · rw [if_pos ((hcond1 t).mpr h), stAfter_first V c t h]
  · rw [if_neg (mt (hcond1 t).mp h), stAfter_next V c t h, hs fun h0 => h (by rw [h0])]

theorem body_obligation (V : Entry F) (c : Dev nD) : BodyObligation (dat V c) (defs₀ (F := F)) Variants.none () Set.univ := fun t => by
  rw [bigSep_W2, bigSep_W2]
  show _ ⊢ wp _ _ _ (bodyAt2 t) fun _ =>
      iprop((dat V c).Φ t.succ ∗ (dat V c).owesAt () t.castSucc
        ∗ owns c.tc (st2_0 t) fullShare (iblk V c 0 t) ∗ owns c.tc (st2_1 t) fullShare (iblk V c 1 t)
        ∗ owns c.tc (st2_2 t) fullShare (k2_pay4 (iblk V c 0 t) (iblk V c 1 t)) ∗ (dat V c).leavesExact 3 t)
  simp only [before_0, before_1]
  rw [dat_Φ, dat_Φ]; unfold Phi
  iintro ⟨⟨%m, %l, %hs, Hg, Hr, HS0, HS1⟩, Ho, ⟨%e0, H0⟩, ⟨%e1, H1⟩, ⟨%e2, H2⟩, ⟨%e3, H3⟩⟩
  iapply (run c Set.univ (grid2.coords t) (st2_0 t) (st2_1 t) (st2_2 t) (st2_3 t) _ _ _ _ _ _ _ _
    (fun h1 h2 => by have := (hcond1 t).mp h1; have := (hcond2 t).mp h2; omega) (iblk V c 0 t) (iblk V c 1 t) _ _ m l _)
  iframe H0 H1 H2 H3 HS0 HS1
  iintro ⟨H0, H1, H2, H3, HS0, HS1⟩
  rw [nxt_eq V c t _ hs]
  isplitl [Hg Hr HS0 HS1]
  · iexists (stAfter V c t.val t.isLt).1, (stAfter V c t.val t.isLt).2; iframe Hg Hr HS0 HS1; ipureintro; exact fun _ => rfl
  iframe Ho H0 H1 H2
  iapply (leaves_3 V c t e3); iexact H3

theorem hin (V : Entry F) (c : Dev nD) : iprop((∃ r, prngReg c r) ∗ Pipeline.scopedRest (Ix := Unit) (Name := ℕ) (U := UR sig nD τ) (Lvl := ℕ) (Val := Elt F) spec2 c)
    ⊢ ((dat V c).Φ 0 : sProp 𝕄) := by
  rw [Pipeline.scopedRest_split_of_list spec2 c [cc2_scratch0, cc2_scratch1] (by decide) (by decide), bigSepL_cons_cons, bigSepL_singleton, dat_Φ]
  unfold Phi; simp only [owns_whole]
  show iprop(_ ∗ (_ ∗ _) ∗ _) ⊢ _
  iintro ⟨Hg, ⟨⟨%m, H0⟩, ⟨%l, H1⟩⟩, Hr⟩
  iexists m, l; iframe Hg Hr H0 H1
  ipureintro; exact fun h => absurd (Fin.val_zero _) h

theorem hout (V : Entry F) (c : Dev nD) : ((dat V c).Φ (Fin.last cfg2.N) : sProp 𝕄)
    ⊢ iprop((∃ r, prngReg c r) ∗ Pipeline.scopedRest (Ix := Unit) (Name := ℕ) (U := UR sig nD τ) (Lvl := ℕ) (Val := Elt F) spec2 c) := by
  rw [Pipeline.scopedRest_split_of_list spec2 c [cc2_scratch0, cc2_scratch1] (by decide) (by decide), bigSepL_cons_cons, bigSepL_singleton, dat_Φ]
  unfold Phi; simp only [owns_whole]
  show _ ⊢ iprop(_ ∗ (_ ∗ _) ∗ _)
  iintro ⟨%m, %l, -, Hg, Hr, H0, H1⟩
  iframe Hg Hr
  isplitl [H0]; · iexists _; iexact H0
  iexists _; iexact H1

end Cert.KernelIdeal.Reg2

end
-- ==== Proof.KI.Run.lean ====
import proofs.«419445_j27642409517469_3_alg».proof.Proof.Gen.KernelIdeal.Regions
import proofs.«419445_j27642409517469_3_alg».proof.Proof.KI.Reg0
import proofs.«419445_j27642409517469_3_alg».proof.Proof.KI.Reg1
import proofs.«419445_j27642409517469_3_alg».proof.Proof.KI.Reg2
import Idealize.ShloMosaic.Lib.Pipeline.RegionsLoop

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

abbrev base : Entry F := fun c r => m ((c : Thread nD τ).loc r)

abbrev entryV1 : Entry F := fun c b => V1 m c b

def outs2 : Entry F := fun c =>
  Function.update (Function.update (base m c) main_v15_0 ((Reg0.dat (entryV1 m) c).arrAt 3 cfg0.N))
    main_v15_1 ((Reg0.dat (entryV1 m) c).arrAt 4 cfg0.N)

abbrev entry3 : Entry F := fun c b => V3 m (fun _ r c => outs2 m c r) c b

def outs4 : Entry F := fun c =>
  Function.update (base m c) main_v18 ((Reg1.dat (entry3 m) c).arrAt 3 cfg1.N)

abbrev entry5 : Entry F := fun c b => V5 m (fun J r c => match J with | 2 => outs2 m c r | _ => outs4 m c r) c b

def outs6 : Entry F := fun c =>
  Function.update (Function.update (base m c) main_v20_0 ((Reg2.dat (entry5 m) c).arrAt 2 cfg2.N))
    main_v20_1 ((Reg2.dat (entry5 m) c).arrAt 3 cfg2.N)

/-- What the three regions leave: each layer is stated over contents that hold the earlier regions' results only. -/
def outs : Outs (F := F) := fun J r c => match J with
  | 2 => outs2 m c r
  | 4 => outs4 m c r
  | 6 => outs6 m c r
  | _ => base m c r

abbrev entryV3 : Entry F := fun c b => V3 m (outs m) c b
abbrev entryV5 : Entry F := fun c b => V5 m (outs m) c b

def pdats : (p : Fin 3) → (c : Dev nD) → Dat τ (Elt F) Unit ℕ (UR sig nD τ) ℕ (Pipeline.pin (pcfgs (F := F)) adm p) c
  | ⟨0, _⟩ => fun c => Reg0.dat (entryV1 m) c
  | ⟨1, _⟩ => fun c => Reg1.dat (entryV3 m) c
  | ⟨2, _⟩ => fun c => Reg2.dat (entryV5 m) c

theorem outs_2_main_v15_0 (c : Dev nD) : outs m 2 main_v15_0 c = (Reg0.dat (entryV1 m) c).arrAt 3 cfg0.N := by
  show outs2 m c main_v15_0 = _
  exact (Function.update_of_ne (by decide) ..).trans (Function.update_self ..)
theorem outs_2_main_v15_1 (c : Dev nD) : outs m 2 main_v15_1 c = (Reg0.dat (entryV1 m) c).arrAt 4 cfg0.N := by
  show outs2 m c main_v15_1 = _
  exact Function.update_self ..
theorem outs_4_main_v18 (c : Dev nD) : outs m 4 main_v18 c = (Reg1.dat (entryV3 m) c).arrAt 3 cfg1.N := by
  show outs4 m c main_v18 = _
  exact Function.update_self ..
theorem outs_6_main_v20_0 (c : Dev nD) : outs m 6 main_v20_0 c = (Reg2.dat (entryV5 m) c).arrAt 2 cfg2.N := by
  show outs6 m c main_v20_0 = _
  exact (Function.update_of_ne (by decide) ..).trans (Function.update_self ..)
theorem outs_6_main_v20_1 (c : Dev nD) : outs m 6 main_v20_1 c = (Reg2.dat (entryV5 m) c).arrAt 3 cfg2.N := by
  show outs6 m c main_v20_1 = _
  exact Function.update_self ..

abbrev L : GSem nD τ sig → Finset Unit := fun _ => ∅
abbrev lv : GSem nD τ sig → Unit → ℕ := fun _ _ => 0

abbrev R (c : Dev nD) : sProp 𝕄 :=
  iprop((∃ r, prngReg c r) ∗ ∃ W, owes c.tc (0 : CellTallies nD τ sig Unit) W)

abbrev Seg := Pipeline.RegionSeg (pcfgs (F := F)) adm (pdats m) () defs₀ Variants.none L lv

set_option backward.isDefEq.respectTransparency.types false in
/-- A region between two valuations of the unscoped buffers: its arrays leave them at `V` and come back at `V'`. -/
def seg (p : Fin 3) (win : Pipeline.WinFacts₀ (pcfgs (F := F) p).spec)
    (bp : ∀ w : Fin (cfgs p).W, 0 < ((cfgs p).spec w).block.numel)
    (sw : ∀ (w : Fin (cfgs p).W) (s : Fin ((cfgs p).spec w).nbuf), (((cfgs p).spec w).stage s).IsWhole)
    (V V' : Dev nD → Valuation τ sig (Elt F))
    (hb : ∀ c, Pipeline.BodyObligation (pdats m p c) (defs₀ (F := F)) Variants.none () Set.univ)
    (ho : ∀ c t, (pdats m p c).owed t = 0) (hr : ∀ c, (pdats m p c).recorded 0 = Set.univ)
    (hi : ∀ c, iprop((∃ r, prngReg c r) ∗ Pipeline.scopedRest (cfgs p).spec c) ⊢ ((pdats m p c).Φ 0 : sProp 𝕄))
    (hl : ∀ c, ((pdats m p c).Φ (Fin.last (cfgs p).N) : sProp 𝕄) ⊢ iprop((∃ r, prngReg c r) ∗ Pipeline.scopedRest (cfgs p).spec c))
    (Z : Dev nD → sProp 𝕄)
    (he : ∀ c, (unscopedBufs c (fun b => V c b) : sProp 𝕄) ⊢ iprop((pdats m p c).arrays ((pdats m p c).arrAt · 0) ∗ Z c))
    (hx : ∀ c, iprop((pdats m p c).arrays ((pdats m p c).arrAt · (cfgs p).N) ∗ Z c) ⊢ (unscopedBufs c (fun b => V' c b) : sProp 𝕄)) :
    Seg m p where
  win := win
  block_pos := bp
  stage_whole := sw
  K := PEmpty
  osem k := k.elim
  ho := Pipeline.OwnSemFacts.none _
  hbody c := (hb c).loose
  hwaits := Pipeline.hwaits_of_owed_zero _ _ _ _ L lv p ho
  pre c := iprop(StableHlo.held c.tc (Pipeline.ucRefs τ sig) (V c) ∗ R c)
  post c := iprop(StableHlo.held c.tc (Pipeline.ucRefs τ sig) (V' c) ∗ R c)
  X c := iprop(∃ r, prngReg c r)
  Y c := iprop(∃ r, prngReg c r)
  Z := Z
  hentry c := by
    rw [Pipeline.ownSems0_none, ← Pipeline.unscopedBufs_held]
    iintro ⟨⟨Hheld, Hprng, Howes⟩, -, -⟩
    ihave Hsp := (he c) $$ Hheld
    icases Hsp with ⟨Harr, Hoff⟩
    imodintro
    isplitl [Harr]; · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      rw [ho c 0]
      icases Howes with ⟨%W, Howes⟩
      iexists W
      isplitr; · ipureintro; exact fun x _ => Or.inl (by rw [hr c]; exact Set.mem_univ x)
      iexact Howes
    isplitl [Hprng] <;> iassumption
  hin c := (sep_mono .rfl sep_elim_right).trans (hi c)
  hout c := by
    rw [Pipeline.ownSems0_none]
    exact (hl c).trans (BI.sep_mono (BI.Entails.refl _) BI.emp_sep.2)
  hexit c := by
    rw [← Pipeline.unscopedBufs_held]
    iintro ⟨Harr, Howes, Hprng, Hoff⟩
    imodintro
    isplitl [Harr Hoff]
    · iapply hx c
      isplitl [Harr] <;> iassumption
    isplitl [Hprng]; · iexact Hprng
    unfold Pipeline.Dat.owesAt Pipeline.owesWithin
    rw [ho c (Fin.last _)]
    icases Howes with ⟨%W, -, Howes⟩
    iexists W
    iexact Howes

/-- A reference that is no array of the windows is none of the listed references, each of which is one. -/
theorem not_mem_of_arrs {gr W : ℕ} (spec : Fin W → Pipeline.WinSpec sig gr) (l : List (Ref sig .tc))
    (hl : ∀ r ∈ l, ∃ w, Pipeline.arrRef spec w = r) {b : Ref sig .tc} (hb : b ∉ Finset.univ.image (Pipeline.arrRef spec)) : b ∉ l :=
  fun h => let ⟨w, e⟩ := hl b h; hb (Finset.mem_image.mpr ⟨w, Finset.mem_univ _, e⟩)

theorem exit0_arr (c : Dev nD) : ∀ w : Fin cfg0.W,
    (Reg0.dat (entryV1 m) c).arrAt w cfg0.N = V2 m (outs m) c (Pipeline.arrRef spec0 w)
  | 0 => ((Reg0.dat (entryV1 m) c).arrAt_in 0 rfl _).trans
      ((Reg0.dat_A (entryV1 m) c 0).trans (V2_of m (outs m) c main_v11 (by decide)).symm)
  | 1 => ((Reg0.dat (entryV1 m) c).arrAt_in 1 rfl _).trans
      ((Reg0.dat_A (entryV1 m) c 1).trans (V2_of m (outs m) c main_v12 (by decide)).symm)
  | 2 => ((Reg0.dat (entryV1 m) c).arrAt_in 2 rfl _).trans
      ((Reg0.dat_A (entryV1 m) c 2).trans (V2_of m (outs m) c main_v13 (by decide)).symm)
  | 3 => by
    show _ = V2 m (outs m) c main_v15_0
    unfold V2
    rw [Function.update_of_ne (StableHlo.devRef_ne_of_ne (by decide)), Function.update_self, outs_2_main_v15_0]
  | 4 => by
    show _ = V2 m (outs m) c main_v15_1
    unfold V2
    rw [Function.update_self, outs_2_main_v15_1]
  | ⟨_ + 5, h⟩ => absurd h (Nat.not_lt.2 (Nat.le_add_left _ _))

set_option backward.isDefEq.respectTransparency.types false in
def R0 : Seg m 0 :=
  seg m 0 launch0.win.to₀ launch0.block_pos launch0.stage_whole (V1 m) (V2 m (outs m))
    (Reg0.body_obligation _) (Reg0.dat_owed _) (Reg0.dat_recorded _ · 0) (Reg0.hin _) (Reg0.hout _)
    (fun c => Pipeline.unscopedRest spec0 c (entryV1 m c))
    (fun c => Pipeline.arrays_of_unscopedBufs (p := 0) _ _ (pdats m) launch0.win launch0.arr_whole c
      ((pdats m 0 c).share_full (Reg0.dat_q (entryV1 m) c)) (entryV1 m c) (Reg0.dat_A (entryV1 m) c))
    (fun c => Pipeline.unscopedBufs_of_arrays (p := 0) _ _
      launch0.win launch0.arr_whole c (pdats m) ((pdats m 0 c).share_full (Reg0.dat_q (entryV1 m) c))
      (entryV1 m c) (fun b => V2 m (outs m) c b) ((pdats m 0 c).arrAt · cfg0.N) (exit0_arr m c)
      fun b hb => V2_of m (outs m) c b (not_mem_of_arrs spec0 _ (by decide) hb))

section Region1

variable (c : Dev nD)

theorem arrBufs1_eq (V : (b : Ref sig .tc) → Buf (Elt F) ((c : Thread nD τ).loc b)) :
    (Pipeline.arrBufs spec1 c V : sProp 𝕄)
      = iprop((((c : Thread nD τ).loc main_v17) ↦{fullShare} V main_v17) ∗ (((c : Thread nD τ).loc main_v16) ↦{fullShare} V main_v16)
          ∗ (((c : Thread nD τ).loc main_v18) ↦{fullShare} V main_v18)) := by
  unfold Pipeline.arrBufs
  exact bigSep_eq_bigSepL_of_eq [main_v17, main_v16, main_v18] (by decide) (by decide) _

theorem share1 (V : Entry F) : (Reg1.dat V c).share 0 = fullShare.left ∧ (Reg1.dat V c).share 1 = fullShare
    ∧ (Reg1.dat V c).share 2 = fullShare.right ∧ (Reg1.dat V c).share 3 = fullShare := by
  obtain ⟨h0, h2, h1, h3⟩ := Reg1.dat_q V c
  unfold Pipeline.Dat.share
  exact ⟨(if_neg (by decide)).trans h0, (if_neg (by decide)).trans h1, (if_neg (by decide)).trans h2, if_pos (by decide)⟩

theorem arrays1_eq (V : Entry F) (G : (w : Fin cfg1.W) → Buf (Elt F) ((cfg1.win w).arr.view.loc (c.tc : Thread nD τ))) :
    ((Reg1.dat V c).arrays G : sProp 𝕄)
      = iprop((((c : Thread nD τ).loc main_v17) ↦{fullShare.left} G 0) ∗ (((c : Thread nD τ).loc main_v16) ↦{fullShare} G 1)
          ∗ (((c : Thread nD τ).loc main_v17) ↦{fullShare.right} G 2) ∗ (((c : Thread nD τ).loc main_v18) ↦{fullShare} G 3)) := by
  obtain ⟨s0, s1, s2, s3⟩ := share1 c V
  unfold Pipeline.Dat.arrays
  rw [bigSep_W1, (arr_whole1 0).set_eq_univ, (arr_whole1 1).set_eq_univ, (arr_whole1 3).set_eq_univ, s0, s1, s2, s3]

/-- A full share is its left and right halves: region 1's arrays at contents read off `W` are the three buffers behind them, each whole at `W`. -/
theorem arrays1 (V : Entry F) (W : (b : Ref sig .tc) → Buf (Elt F) ((c : Thread nD τ).loc b))
    (G : (w : Fin cfg1.W) → Buf (Elt F) ((cfg1.win w).arr.view.loc (c.tc : Thread nD τ)))
    (h0 : G 0 = W main_v17) (h1 : G 1 = W main_v16) (h2 : G 2 = W main_v17) (h3 : G 3 = W main_v18) :
    ((Reg1.dat V c).arrays G : sProp 𝕄) ⊣⊢ Pipeline.arrBufs spec1 c W := by
  rw [arrBufs1_eq, arrays1_eq, h0, h1, h2, h3]
  constructor
  · iintro ⟨Hl, H16, Hr, H18⟩
    ihave H17 := (pointsTo_share (PosShare.mem_left_op_right fullShare)).2 $$ [Hl Hr]
    · isplitl [Hl] <;> iassumption
    isplitl [H17]; · iexact H17
    isplitl [H16] <;> iassumption
  · iintro ⟨H17, H16, H18⟩
    ihave H17 := (pointsTo_share (PosShare.mem_left_op_right fullShare)).1 $$ H17
    icases H17 with ⟨Hl, Hr⟩
    isplitl [Hl]; · iexact Hl
    isplitl [H16]; · iexact H16
    isplitl [Hr] <;> iassumption

theorem arrAt1_last_out : (Reg1.dat (entryV3 m) c).arrAt 3 cfg1.N = V4 m (outs m) c main_v18 := by
  unfold V4
  rw [Function.update_self, outs_4_main_v18]

theorem exit1_rest :
    (Pipeline.unscopedRest spec1 c (fun b => V4 m (outs m) c b) : sProp 𝕄)
      = Pipeline.unscopedRest spec1 c (entryV3 m c) := by
  unfold Pipeline.unscopedRest
  exact bigSep_congr fun b hb => by
    dsimp only
    rw [V4_of m (outs m) c b (not_mem_of_arrs spec1 _ (by decide) (Finset.mem_sdiff.mp hb).2)]

end Region1

set_option backward.isDefEq.respectTransparency.types false in
def R1 : Seg m 1 :=
  seg m 1 winFacts₀1 block_pos1 stage_whole1 (V3 m (outs m)) (V4 m (outs m))
    (Reg1.body_obligation _) (Reg1.dat_owed _) (Reg1.dat_recorded _ · 0) (Reg1.hin _) (Reg1.hout _)
    (fun c => Pipeline.unscopedRest spec1 c (entryV3 m c))
    (fun c => by
      rw [Pipeline.unscopedBufs_split₀ (Pipeline.pin (pcfgs (F := F)) adm) 1 winFacts₀1.arr_unscoped c]
      exact sep_mono (arrays1 c (entryV3 m) (entryV3 m c) _ (Reg1.dat_A _ c 0) (Reg1.dat_A _ c 1) (Reg1.dat_A _ c 2) (Reg1.dat_A _ c 3)).2 .rfl)
    (fun c => by
      rw [Pipeline.unscopedBufs_split₀ (Pipeline.pin (pcfgs (F := F)) adm) 1 winFacts₀1.arr_unscoped c]
      exact BI.sep_mono (arrays1 c (entryV3 m) (fun b => V4 m (outs m) c b) _
        (((Reg1.dat _ c).arrAt_in 0 rfl _).trans ((Reg1.dat_A _ c 0).trans (V4_of m (outs m) c main_v17 (by decide)).symm))
        (((Reg1.dat _ c).arrAt_in 1 rfl _).trans ((Reg1.dat_A _ c 1).trans (V4_of m (outs m) c main_v16 (by decide)).symm))
        (((Reg1.dat _ c).arrAt_in 2 rfl _).trans ((Reg1.dat_A _ c 2).trans (V4_of m (outs m) c main_v17 (by decide)).symm))
        (arrAt1_last_out m c)).1 (Entails.of_eq (exit1_rest m c).symm))

theorem exit2_arr (c : Dev nD) : ∀ w : Fin cfg2.W,
    (Reg2.dat (entryV5 m) c).arrAt w cfg2.N = V6 m (outs m) c (Pipeline.arrRef spec2 w)
  | 0 => ((Reg2.dat (entryV5 m) c).arrAt_in 0 rfl _).trans
      ((Reg2.dat_A (entryV5 m) c 0).trans (V6_of m (outs m) c main_v19 (by decide)).symm)
  | 1 => ((Reg2.dat (entryV5 m) c).arrAt_in 1 rfl _).trans
      ((Reg2.dat_A (entryV5 m) c 1).trans (V6_of m (outs m) c main_v14 (by decide)).symm)
  | 2 => by
    show _ = V6 m (outs m) c main_v20_0
    unfold V6
    rw [Function.update_of_ne (StableHlo.devRef_ne_of_ne (by decide)), Function.update_self, outs_6_main_v20_0]
  | 3 => by
    show _ = V6 m (outs m) c main_v20_1
    unfold V6
    rw [Function.update_self, outs_6_main_v20_1]
  | ⟨_ + 4, h⟩ => absurd h (Nat.not_lt.2 (Nat.le_add_left _ _))

set_option backward.isDefEq.respectTransparency.types false in
def R2 : Seg m 2 :=
  seg m 2 launch2.win.to₀ launch2.block_pos launch2.stage_whole (V5 m (outs m)) (V6 m (outs m))
    (Reg2.body_obligation _) (Reg2.dat_owed _) (Reg2.dat_recorded _ · 0) (Reg2.hin _) (Reg2.hout _)
    (fun c => Pipeline.unscopedRest spec2 c (entryV5 m c))
    (fun c => Pipeline.arrays_of_unscopedBufs (p := 2) _ _ (pdats m) launch2.win launch2.arr_whole c
      ((pdats m 2 c).share_full (Reg2.dat_q (entryV5 m) c)) (entryV5 m c) (Reg2.dat_A (entryV5 m) c))
    (fun c => Pipeline.unscopedBufs_of_arrays (p := 2) _ _
      launch2.win launch2.arr_whole c (pdats m) ((pdats m 2 c).share_full (Reg2.dat_q (entryV5 m) c))
      (entryV5 m c) (fun b => V6 m (outs m) c b) ((pdats m 2 c).arrAt · cfg2.N) (exit2_arr m c)
      fun b hb => V6_of m (outs m) c b (not_mem_of_arrs spec2 _ (by decide) hb))

set_option backward.isDefEq.respectTransparency.types false in
theorem run_values (ρ : Dev nD → PrngReg) :
    θ_run defs (onTc (τ := τ) (main (F := F))) ⟨m, fun _ => 0, ρ⟩ (fun r => ∀ c : Dev nD,
      r.2.mem ((c.tc : Thread nD τ).loc main_v20_0) = V9 m (outs m) c main_v20_0
      ∧ r.2.mem ((c.tc : Thread nD τ).loc main_v25) = V9 m (outs m) c main_v25
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm (pdats m) () cellOf_inj (emb₁ : Emb _ 𝕄) defs₀ Variants.none L lv m ρ main
    (segs m (outs m) Variants.none L lv (fun _ => R) () (pdats m) (R0 m) (R1 m) (R2 m))
    (fun c Q => by rewrite [main_chain c, Pipeline.Seg.run_eq_chain]; exact .rfl)
    (fun c => by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by rw [BI.bigSep_emp_const, ownU_emb₁]; iintro Hu; imodintro; isplitl [Hu]; · iexact Hu
               iempintro)
    (T₀ := fun c => iprop(StableHlo.held c.tc (Pipeline.ucRefs τ sig) (V0 m c) ∗ R c))
    (Tₙ := fun c => StableHlo.held c.tc (Pipeline.ucRefs τ sig) (V9 m (outs m) c))
    (hch := fun c => ⟨.rfl, .rfl, .rfl, .rfl, .rfl, .rfl, .rfl, .rfl, .rfl,
      sep_mono .rfl (by iintro ⟨-, Howes⟩; iexact Howes)⟩)
    (hinit := Pipeline.initEach L lv fun c => ?_) (hfin := fun c s' => ?_) (hQ := fun _ h => h)
  · rw [show unscopedBufs c (fun b => m (c.tc.loc b)) = StableHlo.held c.tc (Pipeline.ucRefs τ sig) (V0 m c)
      from Pipeline.unscopedBufs_held c (V0 m c)]
    iintro ⟨⟨Hheld, -, Howes, -, Hprng, -⟩, -⟩
    imodintro
    isplitl [Hheld]; · iexact Hheld
    isplitl [Hprng]; · iexists _; iexact Hprng
    iexists ∅
    iexact Howes
  · unfold StableHlo.held
    iintro ⟨Hheld, HSI⟩
    ihave Hread := (pointsTo_read_all (Pipeline.ucRefs τ sig) (fun b => (c.tc.1, b)) (V9 m (outs m) c) s') $$ [Hheld HSI]
    · isplitl [Hheld] <;> iassumption
    icases Hread with ⟨%h, HSI⟩
    imodintro
    isplitr
    · ipureintro
      have rd : ∀ r : Ref sig .tc, ¬ (Proc.devRef .tc r : DevRef τ sig).isScoped → _ := fun r hr =>
        h (Proc.devRef .tc r) (Finset.mem_filter.mpr ⟨StableHlo.devRef_mem_tcRefs r, hr⟩)
      exact ⟨rd main_v20_0 (by decide), rd main_v25 (by decide),
        (rd main_arg0 (by decide)).trans (V9_main_arg0 m (outs m) c),
        (rd main_arg1 (by decide)).trans (V9_main_arg1 m (outs m) c),
        (rd main_arg2 (by decide)).trans (V9_main_arg2 m (outs m) c),
        (rd main_arg3 (by decide)).trans (V9_main_arg3 m (outs m) c),
        (rd main_arg4 (by decide)).trans (V9_main_arg4 m (outs m) c),
        (rd main_arg5 (by decide)).trans (V9_main_arg5 m (outs m) c),
        (rd main_arg6 (by decide)).trans (V9_main_arg6 m (outs m) c),
        (rd main_arg7 (by decide)).trans (V9_main_arg7 m (outs m) c)⟩
    · iexact HSI

/-- The frame is the run's values, less the two results. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2.2) (run_values m ρ)

end Cert.KernelIdeal.Run

end
-- ==== Proof.RefRun.lean ====
import proofs.«419445_j27642409517469_3_alg».proof.Proof.RefOpsP
import proofs.«419445_j27642409517469_3_alg».proof.Proof.RefReadP
import Idealize.ShloMosaic.Lib.StableHlo.Run

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

abbrev cont (m : (ℓ : Loc nD τ sig) → Buf (Elt F) ℓ) (c : Dev nD) (b : Ref sig .tc) : Buf (Elt F) ((c.tc : Thread nD τ).loc b) :=
  m ((c.tc : Thread nD τ).loc b)

set_option maxRecDepth 100000 in
set_option maxHeartbeats 38400000 in
-- Each operation writes its function's value at its own buffer and leaves the others, so the fold of the list at a result buffer is the composition of the stages.
theorem after_vals (m : (ℓ : Loc nD τ sig) → Buf (Elt F) ℓ) (c : Dev nD) :
    after (ops (F := F)) (launchContents m c) (Proc.devRef .tc main_v32)
        = ReadP.val_main_v32 (F := F) (cont m c main_arg0) (cont m c main_arg2) (cont m c main_arg3) (cont m c main_arg4) (cont m c main_arg5) (cont m c main_arg7)
      ∧ after (ops (F := F)) (launchContents m c) (Proc.devRef .tc main_v39)
        = ReadP.val_main_v39 (F := F) (cont m c main_arg0) (cont m c main_arg1) (cont m c main_arg2) (cont m c main_arg3) (cont m c main_arg4) (cont m c main_arg5) (cont m c main_arg7) := by
  constructor <;>
  · simp (disch := decide) only [after_cons, after_nil, nullary_result', unary_result', binary_result', ternary_result',
      reshape_result', nullary_result_ne', unary_result_ne', binary_result_ne', ternary_result_ne', reshape_result_ne',
      TRef.ofBuf, TRef.toBuf, cast_eq]
    rfl

set_option maxRecDepth 100000 in
set_option maxHeartbeats 38400000 in
theorem run_vals (m : (ℓ : Loc nD τ sig) → Buf (Elt F) ℓ) (ρ : Dev nD → PrngReg) :
    θ_run defs (onTc (τ := τ) (main (F := F))) ⟨m, fun _ => 0, ρ⟩ fun r => ∀ c : Dev nD,
      cont r.2.mem c main_v32 = ReadP.val_main_v32 (F := F) (cont m c main_arg0) (cont m c main_arg2) (cont m c main_arg3) (cont m c main_arg4) (cont m c main_arg5) (cont m c main_arg7)
      ∧ cont r.2.mem c main_v39 = ReadP.val_main_v39 (F := F) (cont m c main_arg0) (cont m c main_arg1) (cont m c main_arg2) (cont m c main_arg3) (cont m c main_arg4) (cont m c main_arg5) (cont m c main_arg7)
      ∧ cont r.2.mem c main_arg0 = cont m c main_arg0 ∧ cont r.2.mem c main_arg1 = cont m c main_arg1
      ∧ cont r.2.mem c main_arg2 = cont m c main_arg2 ∧ cont r.2.mem c main_arg3 = cont m c main_arg3
      ∧ cont r.2.mem c main_arg4 = cont m c main_arg4 ∧ cont r.2.mem c main_arg5 = cont m c main_arg5
      ∧ cont r.2.mem c main_arg6 = cont m c main_arg6 ∧ cont r.2.mem c main_arg7 = cont m c main_arg7 :=
  (θ_run defs _ _).mono (fun _ h c => ⟨(h c main_v32).trans (after_vals m c).1, (h c main_v39).trans (after_vals m c).2,
      (h c main_arg0).trans (by after_results_simp <;> rfl), (h c main_arg1).trans (by after_results_simp <;> rfl),
      (h c main_arg2).trans (by after_results_simp <;> rfl), (h c main_arg3).trans (by after_results_simp <;> rfl),
      (h c main_arg4).trans (by after_results_simp <;> rfl), (h c main_arg5).trans (by after_results_simp <;> rfl),
      (h c main_arg6).trans (by after_results_simp <;> rfl), (h c main_arg7).trans (by after_results_simp <;> rfl)⟩)
    (run_seq scopedRefs_eq scopedSems_eq defs main (fun _ => ops) main_eq (fun _ => ops_sub) m ρ)

end Cert.ReferenceIdeal.RefRun

end
-- ==== Proof.Spec.lean ====
import Idealize.ShloMosaic.PureOps.Ideal
import Idealize.ShloMosaic.Lib.ValueIdx
import Mathlib.Algebra.BigOperators.Fin

noncomputable section

namespace Cert.Spec

open Idealize.ShloMosaic

def fmax {ι : Type} [Fintype ι] (f : ι → EReal) : EReal := (Finset.univ : Finset ι).fold max ⊥ f

structure Row (D : ℕ) where
  m : EReal
  l : EReal
  acc : Fin D → EReal

def Row.init (D : ℕ) : Row D := ⟨⊥, 0, fun _ => 0⟩

def Row.step {D w : ℕ} (st : Row D) (s : Fin w → EReal) (v : Fin w → Fin D → EReal) : Row D :=
  { m := max st.m (fmax s)
    l := Ideal.exp (st.m - max st.m (fmax s)) * st.l + ∑ c, Ideal.exp (s c - max st.m (fmax s))
    acc := fun d => Ideal.exp (st.m - max st.m (fmax s)) * st.acc d
      + ∑ c, Ideal.exp (s c - max st.m (fmax s)) * v c d }

def Row.out {D : ℕ} (st : Row D) (d : Fin D) : EReal := Ideal.div (st.acc d) st.l

def Row.after {D T w : ℕ} (s : Fin T → Fin w → EReal) (v : Fin T → Fin w → Fin D → EReal) : (j : ℕ) → j ≤ T → Row D
  | 0, _ => Row.init D
  | j + 1, h => (Row.after s v j (Nat.le_of_succ_le h)).step (s ⟨j, h⟩) (v ⟨j, h⟩)

def attnRow {ι : Type} [Fintype ι] {D : ℕ} (s : ι → EReal) (v : ι → Fin D → EReal) (d : Fin D) : EReal :=
  ∑ c, Ideal.div (Ideal.exp (s c - max ⊥ (fmax s))) (0 + ∑ c', Ideal.exp (s c' - max ⊥ (fmax s))) * v c d

structure Lse where
  m : EReal
  l : EReal

def Lse.init : Lse := ⟨⊥, 0⟩

def Lse.step {w : ℕ} (st : Lse) (x : Fin w → EReal) : Lse :=
  { m := max st.m (fmax x)
    l := Ideal.exp (st.m - max st.m (fmax x)) * st.l + ∑ c, Ideal.exp (x c - max st.m (fmax x)) }

def Lse.after {T w : ℕ} (x : Fin T → Fin w → EReal) : (j : ℕ) → j ≤ T → Lse
  | 0, _ => Lse.init
  | j + 1, h => (Lse.after x j (Nat.le_of_succ_le h)).step (x ⟨j, h⟩)

def Lse.out (st : Lse) : EReal := st.m + Ideal.log st.l

def logSoftmaxRow {ι : Type} [Fintype ι] (x : ι → EReal) (c : ι) : EReal :=
  (x c - max ⊥ (fmax x)) - Ideal.log (0 + ∑ c', Ideal.exp (x c' - max ⊥ (fmax x)))

def cur2 {α : Type} {A B : ℕ} (a : (⟨2, ![A, B]⟩ : Shape).Idx → α) (p : Fin A) (q : Fin B) : α := a (ValueIdx.ix2 p q)
def cur3 {α : Type} {A B C : ℕ} (a : (⟨3, ![A, B, C]⟩ : Shape).Idx → α) (p : Fin A) (q : Fin B) (r : Fin C) : α :=
  a (ValueIdx.ix3 p q r)

def batchOf (r : Fin 4096) : Fin 2 := ⟨r.val / 2048, by omega⟩
def posOf (r : Fin 4096) : Fin 2048 := ⟨r.val % 2048, Nat.mod_lt _ (by decide)⟩

def proj3 (x : Fin 2 → Fin 2048 → Fin 1024 → EReal) (w : Fin 1024 → Fin 1024 → EReal) (b : Fin 2) (t : Fin 2048) (e : Fin 1024) : EReal :=
  ∑ d, x b t d * w d e

def proj (x : Fin 4096 → Fin 1024 → EReal) (w : Fin 1024 → Fin 1024 → EReal) (r : Fin 4096) (e : Fin 1024) : EReal :=
  ∑ d, x r d * w d e

def score (q k : Fin 2 → Fin 2048 → Fin 1024 → EReal) (b : Fin 2) (r c : Fin 2048) : EReal :=
  (∑ d, q b r d * k b c d) * Ideal.ofBits .f32 0x3D000000#32

def masked (q k : Fin 2 → Fin 2048 → Fin 1024 → EReal) (b : Fin 2) (r c : Fin 2048) : EReal :=
  if c.val ≤ r.val then score q k b r c else ⊥

def keyOf (t : Fin 4) (c : Fin 512) : Fin 2048 := ⟨512 * t.val + c.val, by omega⟩

def tileScores (q k : Fin 2 → Fin 2048 → Fin 1024 → EReal) (b : Fin 2) (r : Fin 2048) (t : Fin 4) (c : Fin 512) : EReal :=
  masked q k b r (keyOf t c)
def tileVals (v : Fin 2 → Fin 2048 → Fin 1024 → EReal) (b : Fin 2) (t : Fin 4) (c : Fin 512) (d : Fin 1024) : EReal :=
  v b (keyOf t c) d

def flashOut (q k v : Fin 2 → Fin 2048 → Fin 1024 → EReal) (b : Fin 2) (r : Fin 2048) (d : Fin 1024) : EReal :=
  (Row.after (tileScores q k b r) (tileVals v b) (r.val / 512 + 1) (by omega)).out d

def softOut (q k v : Fin 2 → Fin 2048 → Fin 1024 → EReal) (b : Fin 2) (r : Fin 2048) (d : Fin 1024) : EReal :=
  attnRow (fun c : Fin 2048 => masked q k b r c) (fun c => v b c) d

def logits (o : Fin 4096 → Fin 1024 → EReal) (w : Fin 1024 → Fin 32000 → EReal) (r : Fin 4096) (u : Fin 32000) : EReal :=
  ∑ d, o r d * w d u

def colOf (t : Fin 50) (c : Fin 640) : Fin 32000 := ⟨640 * t.val + c.val, by omega⟩

def lseOnline (x : Fin 4096 → Fin 32000 → EReal) (r : Fin 4096) : EReal :=
  (Lse.after (fun t c => x r (colOf t c)) 50 (le_refl 50)).out

def rowOf (b : Fin 2) (t : Fin 2048) : Fin 4096 := ⟨2048 * b.val + t.val, by omega⟩

end Cert.Spec

end
-- ==== Proof.KI.Host.lean ====
import proofs.«419445_j27642409517469_3_alg».proof.Proof.Gen.KernelIdeal.Regions
import proofs.«419445_j27642409517469_3_alg».proof.Proof.Spec
import Idealize.ShloMosaic.Lib.StableHlo.Run
import Idealize.ShloMosaic.Lib.Pipeline.Value
import Idealize.ShloMosaic.Lib.IdealHost
import Idealize.ShloMosaic.Lib.ValueLayout

noncomputable section

namespace Cert.KernelIdeal.Host

open Idealize.ShloMosaic Idealize.ShloMosaic.TcCoe Idealize.SL.Sem
open Idealize.ShloMosaic.ValueIdx

variable (m : (ℓ : Loc nD τ sig) → Buf (Elt Ideal) ℓ) (outs : Gen.Outs (F := Ideal)) (c : Dev nD)

def xK : FVec Ideal S2x2048x1024 .f32 :=
  addf (F := Ideal)
    (Host.gather gather_S32000x1024_S2x2048x1_S2x2048x1024_2_0_n_n_0_2_11024
      (m ((c : Thread nD τ).loc main_arg2) : FVec Ideal S32000x1024 .f32)
      (broadcastInDim S2x2048x1 ![0, 1] Gen.bcast_S2x2048_S2x2048x1_0_1
        (select
          (cmpi .slt (m ((c : Thread nD τ).loc main_arg0) : IVec S2x2048 32)
            (broadcastInDim S2x2048 ![] Gen.bcast_S_S2x2048 (constantI S_ 32 0#32)))
          (addi (m ((c : Thread nD τ).loc main_arg0) : IVec S2x2048 32)
            (broadcastInDim S2x2048 ![] Gen.bcast_S_S2x2048 (constantI S_ 32 32000#32)))
          (m ((c : Thread nD τ).loc main_arg0) : IVec S2x2048 32))))
    (broadcastInDim S2x2048x1024 ![0, 1, 2] Gen.bcast_S1x2048x1024_S2x2048x1024_0_1_2
      (broadcastInDim S1x2048x1024 ![1, 2] Gen.bcast_S2048x1024_S1x2048x1024_1_2
        (m ((c : Thread nD τ).loc main_arg3) : FVec Ideal S2048x1024 .f32)))

theorem unflatten_apply {α : Type} (x : S4096x1024.Idx → α) (j : S2x2048x1024.Idx) :
    shapeCast S2x2048x1024 x Gen.shapeCasts_S4096x1024_S2x2048x1024 j
      = x (ix2 (Cert.Spec.rowOf (j 0) (j 1)) (j 2)) := by
  refine shapeCast_apply _ _ j (ix2 (Cert.Spec.rowOf (j 0) (j 1)) (j 2)) ?_
  rw [Shape.rowMajor_val_three, Shape.rowMajor_val_two]
  show (2048 * (j 0).val + (j 1).val) * 1024 + (j 2).val = ((j 0).val * 2048 + (j 1).val) * 1024 + (j 2).val
  omega

theorem flatten_apply {α : Type} (x : S2x2048x1024.Idx → α) (j : S4096x1024.Idx) :
    shapeCast S4096x1024 x Gen.shapeCasts_S2x2048x1024_S4096x1024 j
      = x (ix3 (Cert.Spec.batchOf (j 0)) (Cert.Spec.posOf (j 0)) (j 1)) := by
  refine shapeCast_apply _ _ j (ix3 (Cert.Spec.batchOf (j 0)) (Cert.Spec.posOf (j 0)) (j 1)) ?_
  rw [Shape.rowMajor_val_three, Shape.rowMajor_val_two]
  have h0 : (j 0).val < 4096 := (j 0).isLt
  show ((j 0).val / 2048 * 2048 + (j 0).val % 2048) * 1024 + (j 1).val = (j 0).val * 1024 + (j 1).val
  omega

theorem V1_v11 (j : S4096x1024.Idx) :
    Gen.V1 m c main_v11 j = xK m c (ix3 (Cert.Spec.batchOf (j 0)) (Cert.Spec.posOf (j 0)) (j 1)) := by
  after_results
  exact flatten_apply _ j

theorem V1_v12 : Gen.V1 m c main_v12 = m ((c : Thread nD τ).loc main_arg4) := by
  after_results
  rfl

theorem V1_v13 : Gen.V1 m c main_v13 = m ((c : Thread nD τ).loc main_arg5) := by
  after_results
  rfl

theorem V1_v14 : Gen.V1 m c main_v14 = m ((c : Thread nD τ).loc main_arg7) := by
  after_results
  rfl

theorem V2_v15_0 : Gen.V2 m outs c main_v15_0 = outs 2 main_v15_0 c := by
  dsimp only [Gen.V2]
  rw [Function.update_of_ne (StableHlo.devRef_ne_of_ne (by decide) :
    (Proc.devRef .tc main_v15_0 : DevRef τ sig) ≠ Proc.devRef .tc main_v15_1), Function.update_self]

theorem V2_v15_1 : Gen.V2 m outs c main_v15_1 = outs 2 main_v15_1 c :=
  Function.update_self ..

theorem V3_v16 (j : S2x2048x1024.Idx) :
    Gen.V3 m outs c main_v16 j = outs 2 main_v15_0 c (ix2 (Cert.Spec.rowOf (j 0) (j 1)) (j 2)) := by
  after_results
  exact (unflatten_apply _ j).trans (congrFun (V2_v15_0 m outs c) _)

theorem V3_v17 (j : S2x2048x1024.Idx) :
    Gen.V3 m outs c main_v17 j = outs 2 main_v15_1 c (ix2 (Cert.Spec.rowOf (j 0) (j 1)) (j 2)) := by
  after_results
  exact (unflatten_apply _ j).trans (congrFun (V2_v15_1 m outs c) _)

theorem V4_v18 : Gen.V4 m outs c main_v18 = outs 4 main_v18 c :=
  Function.update_self ..

theorem V5_v19 (j : S4096x1024.Idx) :
    Gen.V5 m outs c main_v19 j
      = outs 4 main_v18 c (ix3 (Cert.Spec.batchOf (j 0)) (Cert.Spec.posOf (j 0)) (j 1)) := by
  after_results
  exact (flatten_apply _ j).trans (congrFun (V4_v18 m outs c) _)

theorem V5_v14 : Gen.V5 m outs c main_v14 = m ((c : Thread nD τ).loc main_arg7) :=
  (Gen.V5_of m outs c main_v14 (by decide)).trans <| (Gen.V4_of m outs c main_v14 (by decide)).trans <|
    (Gen.V3_of m outs c main_v14 (by decide)).trans <| (Gen.V2_of m outs c main_v14 (by decide)).trans (V1_v14 m c)

theorem V6_v20_0 : Gen.V6 m outs c main_v20_0 = outs 6 main_v20_0 c := by
  dsimp only [Gen.V6]
  rw [Function.update_of_ne (StableHlo.devRef_ne_of_ne (by decide) :
    (Proc.devRef .tc main_v20_0 : DevRef τ sig) ≠ Proc.devRef .tc main_v20_1), Function.update_self]

theorem V6_v20_1 : Gen.V6 m outs c main_v20_1 = outs 6 main_v20_1 c :=
  Function.update_self ..

theorem V9_v20_0 : Gen.V9 m outs c main_v20_0 = outs 6 main_v20_0 c :=
  (Gen.V9_of m outs c main_v20_0 (by decide)).trans <| (Gen.V8_of m outs c main_v20_0 (by decide)).trans <|
    (Gen.V7_of m outs c main_v20_0 (by decide)).trans (V6_v20_0 m outs c)

theorem V6_arg1 : Gen.V6 m outs c main_arg1 = m ((c : Thread nD τ).loc main_arg1) :=
  (Gen.V6_of m outs c main_arg1 (by decide)).trans <| (Gen.V5_of m outs c main_arg1 (by decide)).trans <|
    (Gen.V4_of m outs c main_arg1 (by decide)).trans <| (Gen.V3_of m outs c main_arg1 (by decide)).trans <|
    (Gen.V2_of m outs c main_arg1 (by decide)).trans <| (Gen.V1_of m c main_arg1 (by decide)).trans rfl

def tgtK : IVec S4096x1 32 :=
  shapeCast S4096x1 (m ((c : Thread nD τ).loc main_arg1) : IVec S2x2048 32) Gen.shapeCasts_S2x2048_S4096x1

def startK : IVec S4096x1x1 32 :=
  shapeCast S4096x1x1
    (select (cmpi .slt (tgtK m c) (broadcastInDim S4096x1 ![] Gen.bcast_S_S4096x1 (constantI S_ 32 0#32)))
      (addi (tgtK m c) (broadcastInDim S4096x1 ![] Gen.bcast_S_S4096x1 (constantI S_ 32 32000#32)))
      (tgtK m c))
    Gen.shapeCasts_S4096x1_S4096x1x1

def maskK : IVec S4096x1 1 :=
  Host.reduce IntOp.andi
    (andi (cmpi .sge (startK m c) (broadcastInDim S4096x1x1 ![] Gen.bcast_S_S4096x1x1 (constantI S_ 32 0#32)))
      (cmpi .sle (startK m c) (broadcastInDim S4096x1x1 ![0, 1, 2] Gen.bcast_S1x1x1_S4096x1x1_0_1_2
        (broadcastInDim S1x1x1 ![2] Gen.bcast_S1_S1x1x1_2 (constantI S1 32 31999#32)))))
    (constantI S_ 1 1#1) Gen.reducesTo_S4096x1x1_S4096x1_d2 Gen.h_S_

def okK (i : S4096x1.Idx) : Prop := maskK m c i = 1#1

instance (i : S4096x1.Idx) : Decidable (okK m c i) := inferInstanceAs (Decidable (maskK m c i = 1#1))

def gidxK (i : S4096x1.Idx) : S4096x32000.Idx :=
  gather_S4096x32000_S4096x1x1_S4096x1_n_1_0_0_1_2_11.operandIdx i (startK m c)

theorem gidxK_row (i : S4096x1.Idx) : gidxK m c i 0 = i 0 := Fin.ext <| by
  show _ + _ + _ = _
  have hb : (0 : Fin S4096x32000.rank) ∈ gather_S4096x32000_S4096x1x1_S4096x1_n_1_0_0_1_2_11.operandBatchingDims :=
    List.mem_singleton.mpr rfl
  rw [GatherDims.start_batching _ _ _ _ hb,
    GatherDims.offCoord_eq_zero _ _ _ (fun h => ((GatherDims.mem_sKept _ _).mp h).2 hb), Nat.zero_add, Nat.add_zero]
  unfold GatherDims.batchCoord
  rw [dif_pos hb]
  unfold GatherDims.siCoord
  rfl

abbrev logitsK : FVec Ideal S4096x32000 .f32 := outs 6 main_v20_0 c
abbrev lseK : FVec Ideal S4096x1 .f32 := outs 6 main_v20_1 c

theorem V8_v20_1 : Gen.V8 m outs c main_v20_1 = lseK outs c :=
  (Gen.V8_of m outs c main_v20_1 (by decide)).trans <| (Gen.V7_of m outs c main_v20_1 (by decide)).trans (V6_v20_1 m outs c)

theorem ofBits_nan_f32 : Ideal.ofBits .f32 0x7FC00000#32 = ⊥ := by
  simp [Ideal.ofBits, Ideal.ieee]

theorem V8_v22 (i : S4096x1.Idx) :
    Gen.V8 m outs c main_v22 i = if okK m c i then logitsK outs c (gidxK m c i) else ⊥ := by
  have h : Gen.V8 m outs c main_v22 i = Scalar.select (maskK m c i) (logitsK outs c (gidxK m c i))
      (Ideal.ofBits .f32 0x7FC00000#32) := by
    after_results_simp
    rw [V6_v20_0, V6_arg1]
    rfl
  exact h.trans (if_congr Iff.rfl rfl ofBits_nan_f32)

theorem V9_v25 :
    Gen.V9 m outs c main_v25 ix0
      = Ideal.div (0 + ∑ i : S4096x1.Idx,
          (lseK outs c i - (if okK m c i then logitsK outs c (gidxK m c i) else ⊥)))
        (Ideal.ofBits .f32 0x45800000#32) := by
  have h : Gen.V9 m outs c main_v25
      = Host.divf (F := Ideal)
          (Host.reduceAdd (subf (Gen.V8 m outs c main_v20_1 : FVec Ideal S4096x1 .f32) (Gen.V8 m outs c main_v22))
            (constant S_ .f32 0x00000000#32) Gen.reducesTo_S4096x1_S_d0_1 Gen.h_S_)
          (constant S_ .f32 0x45800000#32) := by
    after_results <;> rfl
  rw [h, hostDivf_apply, hostReduceAdd_apply, constant_apply, constant_apply,
    Ideal.hostReduceAdd_total _ (fun b => b.elim0), Ideal.ofBits_zero_f32]
  refine congrArg (fun s => Ideal.div (0 + s) _) (Finset.sum_congr rfl fun i _ => ?_)
  rw [subf_apply, V8_v20_1, V8_v22]

end Cert.KernelIdeal.Host

end
-- ==== Proof.Math.Finite.lean ====
import proofs.«419445_j27642409517469_3_alg».proof.Proof.Spec

noncomputable section

namespace Cert.Spec

open Idealize.ShloMosaic

theorem fin_mul {x y : EReal} (hx : x ≠ ⊥ ∧ x ≠ ⊤) (hy : y ≠ ⊥ ∧ y ≠ ⊤) : x * y ≠ ⊥ ∧ x * y ≠ ⊤ := by
  lift x to ℝ using ⟨hx.2, hx.1⟩
  lift y to ℝ using ⟨hy.2, hy.1⟩
  exact EReal.coe_mul x y ▸ ⟨EReal.coe_ne_bot _, EReal.coe_ne_top _⟩

theorem fin_add {x y : EReal} (hx : x ≠ ⊥ ∧ x ≠ ⊤) (hy : y ≠ ⊥ ∧ y ≠ ⊤) : x + y ≠ ⊥ ∧ x + y ≠ ⊤ :=
  ⟨EReal.add_ne_bot_iff.2 ⟨hx.1, hy.1⟩, EReal.add_ne_top hx.2 hy.2⟩

theorem fin_sum {ι : Type} [Fintype ι] (f : ι → EReal) (h : ∀ i, f i ≠ ⊥ ∧ f i ≠ ⊤) :
    (∑ i, f i) ≠ ⊥ ∧ (∑ i, f i) ≠ ⊤ :=
  Finset.sum_induction f (fun x => x ≠ ⊥ ∧ x ≠ ⊤) (fun _ _ => fin_add) ⟨EReal.zero_ne_bot, EReal.zero_ne_top⟩
    fun i _ => h i

theorem proj3_finite (x : Fin 2 → Fin 2048 → Fin 1024 → EReal) (w : Fin 1024 → Fin 1024 → EReal)
    (hx : ∀ b t d, x b t d ≠ ⊥ ∧ x b t d ≠ ⊤) (hw : ∀ d e, w d e ≠ ⊥ ∧ w d e ≠ ⊤) (b : Fin 2) (t : Fin 2048) (e : Fin 1024) :
    proj3 x w b t e ≠ ⊥ ∧ proj3 x w b t e ≠ ⊤ :=
  fin_sum _ fun d => fin_mul (hx b t d) (hw d e)

theorem proj_rowOf (x2 : Fin 4096 → Fin 1024 → EReal) (x3 : Fin 2 → Fin 2048 → Fin 1024 → EReal) (w : Fin 1024 → Fin 1024 → EReal)
    (hx : ∀ r d, x2 r d = x3 (batchOf r) (posOf r) d) (b : Fin 2) (t : Fin 2048) (e : Fin 1024) :
    proj x2 w (rowOf b t) e = proj3 x3 w b t e := by
  unfold proj proj3
  refine Finset.sum_congr rfl fun d _ => ?_
  rw [hx, show batchOf (rowOf b t) = b from Fin.ext (by simp only [batchOf, rowOf]; omega),
    show posOf (rowOf b t) = t from Fin.ext (by simp only [posOf, rowOf]; omega)]

end Cert.Spec

end
-- ==== Proof.KI.HostFinite.lean ====
import proofs.«419445_j27642409517469_3_alg».proof.Proof.KI.Host
import proofs.«419445_j27642409517469_3_alg».proof.Proof.Math.Finite

noncomputable section

namespace Cert.KernelIdeal.Host

open Idealize.ShloMosaic Idealize.ShloMosaic.TcCoe Idealize.SL.Sem
open Idealize.ShloMosaic.ValueIdx

-- Every entry is one entry of the token table plus one entry of the positional table.
theorem xK_finite (m : (ℓ : Loc nD τ sig) → Buf (Elt Ideal) ℓ) (c : Dev nD)
    (hE : ∀ i : S32000x1024.Idx, m ((c : Thread nD τ).loc main_arg2) i ≠ (⊥ : EReal)
      ∧ m ((c : Thread nD τ).loc main_arg2) i ≠ (⊤ : EReal))
    (hP : ∀ i : S2048x1024.Idx, m ((c : Thread nD τ).loc main_arg3) i ≠ (⊥ : EReal)
      ∧ m ((c : Thread nD τ).loc main_arg3) i ≠ (⊤ : EReal))
    (j : S2x2048x1024.Idx) : xK m c j ≠ ⊥ ∧ xK m c j ≠ ⊤ :=
  Cert.Spec.fin_add (hE _) (hP _)

end Cert.KernelIdeal.Host

end
-- ==== Proof.Math.FlashAbstract.lean ====
import proofs.«419445_j27642409517469_3_alg».proof.Proof.Spec
import Mathlib.Data.EReal.Inv
import Mathlib.Data.Finset.Fold
import Mathlib.Algebra.BigOperators.Field
import Mathlib.Algebra.Order.BigOperators.Group.Finset
import Mathlib.Analysis.Complex.Exponential
import Mathlib.Logic.Equiv.Fin.Basic

noncomputable section

namespace Cert.Spec

open Idealize.ShloMosaic

theorem fmax_le_iff {ι : Type} [Fintype ι] (f : ι → EReal) (a : EReal) : fmax f ≤ a ↔ ∀ i, f i ≤ a :=
  (Finset.fold_max_le a).trans (by simp)

theorem le_fmax {ι : Type} [Fintype ι] (f : ι → EReal) (i : ι) : f i ≤ fmax f :=
  (Finset.le_fold_max _).2 (Or.inr ⟨i, Finset.mem_univ i, le_rfl⟩)

theorem fmax_ne_top {ι : Type} [Fintype ι] (f : ι → EReal) (h : ∀ i, f i ≠ ⊤) : fmax f ≠ ⊤ :=
  ne_of_lt ((Finset.fold_max_lt _).2 ⟨bot_lt_top, fun i _ => lt_top_iff_ne_top.2 (h i)⟩)

-- A family with no top entry and one entry above bottom has a real maximum.
theorem fmax_real {ι : Type} [Fintype ι] (f : ι → EReal) (h : ∀ i, f i ≠ ⊤) (i0 : ι) (h0 : f i0 ≠ ⊥) :
    ∃ M : ℝ, fmax f = (M : EReal) :=
  ⟨_, (EReal.coe_toReal (fmax_ne_top f h) (ne_bot_of_le_ne_bot h0 (le_fmax f i0))).symm⟩

-- The maximum does not see a relabelling of the index set.
theorem fmax_bij {ι κ : Type} [Fintype ι] [Fintype κ] {e : κ → ι} (he : e.Bijective) (S : ι → EReal) :
    fmax (fun x => S (e x)) = fmax S := by
  refine le_antisymm ((fmax_le_iff _ _).2 fun x => le_fmax S (e x)) ((fmax_le_iff _ _).2 fun i => ?_)
  obtain ⟨x, rfl⟩ := he.2 i
  exact le_fmax (fun x => S (e x)) x

-- Tile `t` of width `w` holds the indices `w * t + c`: tile and place enumerate all of them once.
theorem tile_bijective {T w : ℕ} (f : Fin T × Fin w → Fin (T * w)) (hf : ∀ p, (f p).val = w * p.1.val + p.2.val) :
    f.Bijective := by
  have e : f = finProdFinEquiv := funext fun p => Fin.ext ((hf p).trans (Nat.add_comm _ _))
  rw [e]
  exact finProdFinEquiv.bijective

-- The weight `exp (x - M)` of a score against a real maximum, as a real number.
def ew (x : EReal) (M : ℝ) : ℝ := (Ideal.exp (x - (M : EReal))).toReal

theorem ew_bot (M : ℝ) : ew ⊥ M = 0 := rfl

theorem ew_coe (r M : ℝ) : ew (r : EReal) M = Real.exp (r - M) := rfl

theorem exp_sub_coe {x : EReal} (hx : x ≠ ⊤) (M : ℝ) :
    Ideal.exp (x - (M : EReal)) = ((ew x M : ℝ) : EReal) := by
  induction x with
  | bot => rfl
  | coe r => rfl
  | top => exact absurd rfl hx

theorem ew_pos {x : EReal} (hx : x ≠ ⊤) (hx' : x ≠ ⊥) (M : ℝ) : 0 < ew x M := by
  lift x to ℝ using ⟨hx, hx'⟩
  exact Real.exp_pos _

theorem ew_nonneg (x : EReal) (M : ℝ) : 0 ≤ ew x M := by
  induction x with
  | coe r => exact (Real.exp_pos _).le
  | _ => exact le_rfl

-- Moving the maximum rescales every weight: `exp (M - M') * exp (x - M) = exp (x - M')`.
theorem ew_trans (x : EReal) (M M' : ℝ) : ew (M : EReal) M' * ew x M = ew x M' := by
  induction x with
  | coe r =>
    rw [ew_coe, ew_coe, ew_coe, ← Real.exp_add]
    congr 1
    ring
  | _ => exact mul_zero _

theorem sum_ew_pos {ι : Type} [Fintype ι] (S : ι → EReal) (hS : ∀ i, S i ≠ ⊤) (i0 : ι) (h0 : S i0 ≠ ⊥) (M : ℝ) :
    0 < ∑ i, ew (S i) M :=
  Finset.sum_pos' (fun i _ => ew_nonneg _ M) ⟨i0, Finset.mem_univ _, ew_pos (hS i0) h0 M⟩

theorem coe_sum {ι : Type} (t : Finset ι) (f : ι → ℝ) :
    ((∑ i ∈ t, f i : ℝ) : EReal) = ∑ i ∈ t, (f i : EReal) :=
  map_sum (⟨⟨Real.toEReal, EReal.coe_zero⟩, EReal.coe_add⟩ : ℝ →+ EReal) f t

theorem div_coe (a l : ℝ) (hl : l ≠ 0) : Ideal.div (a : EReal) (l : EReal) = ((a / l : ℝ) : EReal) := by
  rw [Ideal.div_coe hl, ← EReal.coe_mul, mul_one_div]

theorem sum_lt_succ {T : ℕ} (f : Fin T → ℝ) (j : ℕ) (h : j < T) :
    (∑ t : Fin T, if t.val < j + 1 then f t else 0)
      = (∑ t : Fin T, if t.val < j then f t else 0) + f ⟨j, h⟩ := by
  have e : Finset.univ.filter (fun t : Fin T => t.val < j + 1)
      = insert ⟨j, h⟩ (Finset.univ.filter (fun t : Fin T => t.val < j)) := by
    ext t
    simp [Fin.ext_iff]
    omega
  rw [← Finset.sum_filter, ← Finset.sum_filter, e, Finset.sum_insert (by simp), add_comm]

-- Once the tiles from `j` on contribute nothing, the sum over the tiles seen is the sum over all keys.
theorem sum_tail {T w : ℕ} (f : Fin T → Fin w → ℝ) (j : ℕ) (h0 : ∀ t c, j ≤ t.val → f t c = 0) :
    (∑ t : Fin T, if t.val < j then ∑ c, f t c else 0) = ∑ p : Fin T × Fin w, f p.1 p.2 := by
  rw [Fintype.sum_prod_type]
  refine Finset.sum_congr rfl fun t _ => ?_
  split_ifs with h
  · rfl
  · exact (Finset.sum_eq_zero fun c _ => h0 t c (not_lt.1 h)).symm

-- One tile folded into a row whose denominator and numerator are real, the new maximum being the real `M'`.
theorem step_real {D w : ℕ} (st : Row D) (s : Fin w → EReal) (v : Fin w → Fin D → EReal)
    (L : ℝ) (A : Fin D → ℝ) (vr : Fin w → Fin D → ℝ) (M' : ℝ)
    (hm : st.m ≠ ⊤) (hl : st.l = (L : EReal)) (hacc : ∀ d, st.acc d = (A d : EReal))
    (hs : ∀ c, s c ≠ ⊤) (hv : ∀ c d, v c d = (vr c d : EReal))
    (hM' : max st.m (fmax s) = (M' : EReal)) :
    (st.step s v).l = ((ew st.m M' * L + ∑ c, ew (s c) M' : ℝ) : EReal) ∧
    ∀ d, (st.step s v).acc d = ((ew st.m M' * A d + ∑ c, ew (s c) M' * vr c d : ℝ) : EReal) := by
  refine ⟨?_, fun d => ?_⟩ <;>
    simp only [Row.step, hM', hl, hacc, hv, exp_sub_coe hm, exp_sub_coe (hs _), EReal.coe_add, EReal.coe_mul, coe_sum]

variable {D T w : ℕ} (s : Fin T → Fin w → EReal) (v : Fin T → Fin w → Fin D → EReal)
    (vr : Fin T → Fin w → Fin D → ℝ)
    (hs : ∀ t c, s t c ≠ ⊤) (hv : ∀ t c d, v t c d = (vr t c d : EReal))
    (hT : 0 < T) (c0 : Fin w) (h0 : s ⟨0, hT⟩ c0 ≠ ⊥)

include hs hv h0 in
-- After `j` tiles: denominator and numerator, rescaled from the running maximum to any real `M`, are the weighted sums over the tiles seen.
theorem after_real (M : ℝ) :
    ∀ (j : ℕ) (hj : j ≤ T),
      (Row.after s v j hj).m ≤ fmax (fun p : Fin T × Fin w => s p.1 p.2) ∧
      (∀ t c, t.val < j → s t c ≤ (Row.after s v j hj).m) ∧
      ∃ (L : ℝ) (A : Fin D → ℝ), (Row.after s v j hj).l = (L : EReal) ∧
        (∀ d, (Row.after s v j hj).acc d = (A d : EReal)) ∧
        ew (Row.after s v j hj).m M * L = (∑ t : Fin T, if t.val < j then ∑ c, ew (s t c) M else 0) ∧
        ∀ d, ew (Row.after s v j hj).m M * A d
          = ∑ t : Fin T, if t.val < j then ∑ c, ew (s t c) M * vr t c d else 0 := by
  intro j
  induction j with
  | zero =>
    intro _
    refine ⟨bot_le, fun _ _ h => absurd h (Nat.not_lt_zero _), 0, fun _ => 0, rfl, fun _ => rfl, ?_, fun _ => ?_⟩ <;> simp
  | succ j ih =>
    intro hj
    have hj' : j ≤ T := Nat.le_of_succ_le hj
    obtain ⟨ha, hb, L, A, hl, hacc, hL, hA⟩ := ih hj'
    have ha' : max (Row.after s v j hj').m (fmax (s ⟨j, hj⟩)) ≤ fmax (fun p : Fin T × Fin w => s p.1 p.2) :=
      max_le ha ((fmax_le_iff _ _).2 fun c => le_fmax (fun p : Fin T × Fin w => s p.1 p.2) (⟨j, hj⟩, c))
    have hb' : ∀ t c, t.val < j + 1 → s t c ≤ max (Row.after s v j hj').m (fmax (s ⟨j, hj⟩)) := fun t c ht =>
      (Nat.lt_succ_iff_lt_or_eq.1 ht).elim (fun h => le_max_of_le_left (hb t c h))
        fun h => le_max_of_le_right ((Fin.ext h : t = ⟨j, hj⟩) ▸ le_fmax (s t) c)
    have htop := fmax_ne_top _ fun p : Fin T × Fin w => hs p.1 p.2
    have hm : (Row.after s v j hj').m ≠ ⊤ := ne_top_of_le_ne_top htop ha
    obtain ⟨M', hM'⟩ : ∃ M' : ℝ, max (Row.after s v j hj').m (fmax (s ⟨j, hj⟩)) = (M' : EReal) :=
      ⟨_, (EReal.coe_toReal (ne_top_of_le_ne_top htop ha')
        (ne_bot_of_le_ne_bot h0 (hb' _ c0 (Nat.succ_pos j)))).symm⟩
    obtain ⟨h2, h3⟩ := step_real _ (s ⟨j, hj⟩) (v ⟨j, hj⟩) L A (vr ⟨j, hj⟩) M' hm hl hacc (hs _) (hv _) hM'
    have h1 : (Row.after s v (j + 1) hj).m = (M' : EReal) := hM'
    refine ⟨ha', hb', _, _, h2, h3, ?_, fun d => ?_⟩
    all_goals simp only [h1, sum_lt_succ _ j hj, ← hL, ← hA, mul_add, ← mul_assoc, ew_trans,
      Finset.mul_sum]

include hs hv h0 in
-- Once the remaining tiles are wholly masked, the running maximum is the real maximum `M` of all scores and the sums run over all keys.
theorem after_final (j : ℕ) (hj : j ≤ T) (htail : ∀ t c, j ≤ t.val → s t c = ⊥) :
    ∃ M : ℝ, fmax (fun p : Fin T × Fin w => s p.1 p.2) = (M : EReal) ∧ (Row.after s v j hj).m = (M : EReal) ∧
      (Row.after s v j hj).l = ((∑ p : Fin T × Fin w, ew (s p.1 p.2) M : ℝ) : EReal) ∧
      ∀ d, (Row.after s v j hj).acc d = ((∑ p : Fin T × Fin w, ew (s p.1 p.2) M * vr p.1 p.2 d : ℝ) : EReal) := by
  obtain ⟨M, hM⟩ := fmax_real (fun p : Fin T × Fin w => s p.1 p.2) (fun p => hs _ _) (⟨0, hT⟩, c0) h0
  obtain ⟨ha, hb, L, A, hl, hacc, hL, hA⟩ := after_real s v vr hs hv hT c0 h0 M j hj
  have hm : (Row.after s v j hj).m = (M : EReal) := by
    rw [← hM]
    refine le_antisymm ha ((fmax_le_iff _ _).2 fun p => ?_)
    rcases lt_or_ge p.1.val j with h | h
    · exact hb p.1 p.2 h
    · rw [htail p.1 p.2 h]
      exact bot_le
  have h1 : ew (M : EReal) M = 1 := by rw [ew_coe, sub_self, Real.exp_zero]
  refine ⟨M, hM, hm, ?_, fun d => ?_⟩
  · rw [hl, ← sum_tail (fun t c => ew (s t c) M) j fun t c h => by simp only [htail t c h, ew_bot],
      ← hL, hm, h1, one_mul]
  · rw [hacc, ← sum_tail (fun t c => ew (s t c) M * vr t c d) j fun t c h => by simp only [htail t c h, ew_bot, zero_mul],
      ← hA, hm, h1, one_mul]

-- Against its real maximum `M`, a family's denominator is the real sum of its weights.
theorem denom_real {ι : Type} [Fintype ι] (S : ι → EReal) (M : ℝ) (hS : ∀ i, S i ≠ ⊤) (hM : fmax S = (M : EReal)) :
    max ⊥ (fmax S) = (M : EReal) ∧
      (0 : EReal) + ∑ c, Ideal.exp (S c - max ⊥ (fmax S)) = ((∑ i, ew (S i) M : ℝ) : EReal) := by
  have hmax : max ⊥ (fmax S) = (M : EReal) := hM ▸ max_eq_right bot_le
  refine ⟨hmax, ?_⟩
  rw [hmax, zero_add, coe_sum]
  exact Finset.sum_congr rfl fun c _ => exp_sub_coe (hS c) M

theorem attnRow_real {ι : Type} [Fintype ι] {D : ℕ} (S : ι → EReal) (V : ι → Fin D → EReal)
    (Vr : ι → Fin D → ℝ) (M : ℝ)
    (hS : ∀ i, S i ≠ ⊤) (hV : ∀ i d, V i d = (Vr i d : EReal)) (hM : fmax S = (M : EReal))
    (hpos : (∑ i, ew (S i) M) ≠ 0) (d : Fin D) :
    attnRow S V d = (((∑ i, ew (S i) M * Vr i d) / (∑ i, ew (S i) M) : ℝ) : EReal) := by
  obtain ⟨hmax, hden⟩ := denom_real S M hS hM
  unfold attnRow
  rw [hden, hmax, Finset.sum_div]
  refine (Finset.sum_congr rfl fun c _ => ?_).trans (coe_sum _ _).symm
  rw [exp_sub_coe (hS c) M, div_coe _ _ hpos, hV, ← EReal.coe_mul]
  congr 1
  ring

include hs hv h0 in
-- The tiled row equals the one-pass row once the remaining tiles are wholly masked.
theorem after_out_eq_attnRow (j : ℕ) (hj : j ≤ T) (htail : ∀ t c, j ≤ t.val → s t c = ⊥) (d : Fin D) :
    (Row.after s v j hj).out d
      = attnRow (fun p : Fin T × Fin w => s p.1 p.2) (fun p => v p.1 p.2) d := by
  obtain ⟨M, hM, -, hl, hacc⟩ := after_final s v vr hs hv hT c0 h0 j hj htail
  have hpos := (sum_ew_pos (fun p : Fin T × Fin w => s p.1 p.2) (fun p => hs _ _) (⟨0, hT⟩, c0) h0 M).ne'
  rw [attnRow_real (fun p : Fin T × Fin w => s p.1 p.2) (fun p => v p.1 p.2) (fun p => vr p.1 p.2) M
    (fun p => hs _ _) (fun p d => hv _ _ _) hM hpos d]
  show Ideal.div ((Row.after s v j hj).acc d) (Row.after s v j hj).l = _
  rw [hacc d, hl, div_coe _ _ hpos]

theorem attnRow_bij {ι κ : Type} [Fintype ι] [Fintype κ] {D : ℕ} {e : κ → ι} (he : e.Bijective) (S : ι → EReal)
    (V : ι → Fin D → EReal) (d : Fin D) :
    attnRow (fun x => S (e x)) (fun x => V (e x)) d = attnRow S V d := by
  unfold attnRow
  rw [fmax_bij he S, he.sum_comp fun c' => Ideal.exp (S c' - max ⊥ (fmax S))]
  exact he.sum_comp fun c => Ideal.div (Ideal.exp (S c - max ⊥ (fmax S)))
    (0 + ∑ c', Ideal.exp (S c' - max ⊥ (fmax S))) * V c d

end Cert.Spec

end
-- ==== Proof.Math.Flash.lean ====
import proofs.«419445_j27642409517469_3_alg».proof.Proof.Math.FlashAbstract
import proofs.«419445_j27642409517469_3_alg».proof.Proof.Math.Finite

noncomputable section

namespace Cert.Spec

open Idealize.ShloMosaic

theorem scale_real : Ideal.ofBits .f32 0x3D000000#32 = (((1 : ℝ) / 32 : ℝ) : EReal) := by
  simp [Ideal.ofBits, Ideal.ieee, -EReal.coe_mul]
  norm_num

variable (q k v : Fin 2 → Fin 2048 → Fin 1024 → EReal)
  (hq : ∀ b r d, q b r d ≠ ⊥ ∧ q b r d ≠ ⊤) (hk : ∀ b r d, k b r d ≠ ⊥ ∧ k b r d ≠ ⊤)
  (hv : ∀ b r d, v b r d ≠ ⊥ ∧ v b r d ≠ ⊤) (b : Fin 2) (r : Fin 2048)

include hq hk in
-- A score is a finite sum of products of finite entries, times 1/32.
theorem score_finite (c : Fin 2048) : score q k b r c ≠ ⊥ ∧ score q k b r c ≠ ⊤ :=
  fin_mul (fin_sum _ fun d => fin_mul (hq b r d) (hk b c d)) (scale_real ▸ ⟨EReal.coe_ne_bot _, EReal.coe_ne_top _⟩)

include hq hk in
theorem masked_ne_top (c : Fin 2048) : masked q k b r c ≠ ⊤ := by
  unfold masked
  split_ifs
  exacts [(score_finite q k hq hk b r c).2, bot_ne_top]

include hq hk in
-- A key not after the query is admitted: its score is a real number.
theorem masked_ne_bot (c : Fin 2048) (h : c.val ≤ r.val) : masked q k b r c ≠ ⊥ := by
  unfold masked
  rw [if_pos h]
  exact (score_finite q k hq hk b r c).1

theorem key_bijective : Function.Bijective (fun p : Fin 4 × Fin 512 => keyOf p.1 p.2) :=
  tile_bijective (T := 4) (w := 512) _ fun _ => rfl

include hq hk hv in
theorem flashOut_eq_softOut (d : Fin 1024) : flashOut q k v b r d = softOut q k v b r d := by
  unfold flashOut
  rw [after_out_eq_attnRow (tileScores q k b r) (tileVals v b) (fun t c d => (v b (keyOf t c) d).toReal)
    (fun t c => masked_ne_top q k hq hk b r (keyOf t c))
    (fun t c d => (EReal.coe_toReal (hv _ _ _).2 (hv _ _ _).1).symm) (by decide) ⟨0, by decide⟩
    (masked_ne_bot q k hq hk b r _ (Nat.zero_le _)) (r.val / 512 + 1) (by omega)
    (fun t c h => if_neg (not_le.2 (show r.val < 512 * t.val + c.val by omega))) d]
  exact attnRow_bij key_bijective (fun c => masked q k b r c) (fun c => v b c) d

include hq hk hv in
-- The reference's row is a real number: a weighted mean of finite value entries.
theorem softOut_finite (d : Fin 1024) : softOut q k v b r d ≠ ⊥ ∧ softOut q k v b r d ≠ ⊤ := by
  have hS := masked_ne_top q k hq hk b r
  have h0 := masked_ne_bot q k hq hk b r ⟨0, by decide⟩ (Nat.zero_le _)
  obtain ⟨M, hM⟩ := fmax_real (fun c => masked q k b r c) hS _ h0
  unfold softOut
  rw [attnRow_real (fun c => masked q k b r c) (fun c => v b c) (fun c d => (v b c d).toReal) M hS
    (fun c d => (EReal.coe_toReal (hv _ _ _).2 (hv _ _ _).1).symm) hM (sum_ew_pos _ hS _ h0 M).ne' d]
  exact ⟨EReal.coe_ne_bot _, EReal.coe_ne_top _⟩

end Cert.Spec

end
-- ==== Proof.Math.Lse.lean ====
import proofs.«419445_j27642409517469_3_alg».proof.Proof.Math.FlashAbstract

noncomputable section

namespace Cert.Spec.LseM
open Idealize.ShloMosaic

-- The log-sum-exp fold is the maximum and denominator of the attention fold, whatever the value rows.
theorem lse_eq_row {D T w : ℕ} (x : Fin T → Fin w → EReal) (v : Fin T → Fin w → Fin D → EReal) :
    ∀ (j : ℕ) (h : j ≤ T), (Lse.after x j h).m = (Row.after x v j h).m ∧ (Lse.after x j h).l = (Row.after x v j h).l
  | 0, _ => ⟨rfl, rfl⟩
  | j + 1, h => by
    obtain ⟨h1, h2⟩ := lse_eq_row x v j (Nat.le_of_succ_le h)
    show max _ _ = max _ _ ∧ _ * _ + _ = _ * _ + _
    rw [h1, h2]
    exact ⟨rfl, rfl⟩

theorem col_bijective : Function.Bijective (fun p : Fin 50 × Fin 640 => colOf p.1 p.2) :=
  tile_bijective (T := 50) (w := 640) _ fun _ => rfl

variable (x : Fin 4096 → Fin 32000 → EReal) (hx : ∀ r u, x r u ≠ ⊥ ∧ x r u ≠ ⊤) (r : Fin 4096)

include hx in
-- With real logits the row's maximum `M` is real, the sum `Z` of `exp (x - M)` over the row is a positive real, and the tiled fold ends at `M + log Z`.
theorem lse_core :
    ∃ M Z : ℝ, 0 < Z ∧ max ⊥ (fmax (x r)) = (M : EReal) ∧
      (0 + ∑ u, Ideal.exp (x r u - max ⊥ (fmax (x r)))) = (Z : EReal) ∧
      lseOnline x r = ((M + Real.log Z : ℝ) : EReal) := by
  obtain ⟨M, hM, hm, hl, -⟩ := after_final (D := 0) (fun t c => x r (colOf t c)) (fun _ _ _ => 0) (fun _ _ _ => 0)
    (fun t c => (hx _ _).2) (fun _ _ _ => rfl) (by decide) ⟨0, by decide⟩ (hx _ _).1 50 le_rfl
    (fun t _ h => absurd t.2 (not_lt.2 h))
  obtain ⟨e1, e2⟩ := lse_eq_row (fun t c => x r (colOf t c)) (fun _ _ (_ : Fin 0) => (0 : EReal)) 50 le_rfl
  rw [fmax_bij col_bijective (x r)] at hM
  obtain ⟨hmax, hden⟩ := denom_real (x r) M (fun u => (hx r u).2) hM
  have hZ := sum_ew_pos (x r) (fun u => (hx r u).2) ⟨0, by decide⟩ (hx r _).1 M
  refine ⟨M, _, hZ, hmax, hden, ?_⟩
  unfold lseOnline Lse.out
  rw [e1, e2, hm, hl, col_bijective.sum_comp (fun u => ew (x r u) M), Ideal.log_coe, if_neg (not_le.2 hZ),
    ← EReal.coe_add]

include hx in
theorem lseOnline_finite :
    lseOnline x r ≠ ⊥ ∧ lseOnline x r ≠ ⊤ := by
  obtain ⟨M, Z, -, -, -, hlse⟩ := lse_core x hx r
  rw [hlse]
  exact ⟨EReal.coe_ne_bot _, EReal.coe_ne_top _⟩

include hx in
theorem logSoftmaxRow_eq (u : Fin 32000) : logSoftmaxRow (x r) u = x r u - lseOnline x r := by
  obtain ⟨M, Z, hZ, hM, hsum, hlse⟩ := lse_core x hx r
  unfold logSoftmaxRow
  rw [hsum, hM, hlse, ← EReal.coe_toReal (hx r u).2 (hx r u).1, Ideal.log_coe, if_neg (not_le.2 hZ),
    ← EReal.coe_sub, ← EReal.coe_sub, ← EReal.coe_sub]
  exact EReal.coe_eq_coe_iff.2 (by ring)

theorem ofBits_4096 : Ideal.ofBits .f32 0x45800000#32 = ((4096 : ℝ) : EReal) := by
  simp [Ideal.ofBits, Ideal.ieee]
  rw [← EReal.coe_mul]
  exact EReal.coe_eq_coe_iff.2 (by norm_num)

-- Negation passes through a sum none of whose terms is top.
theorem neg_sum {ι : Type} (s : Finset ι) (f : ι → EReal) (h : ∀ i, f i ≠ ⊤) : -∑ i ∈ s, f i = ∑ i ∈ s, -f i :=
  (Finset.sum_hom_rel (r := fun b c => b ≠ ⊤ ∧ -b = c) ⟨EReal.zero_ne_top, neg_zero⟩ fun a b c hbc =>
    ⟨EReal.add_ne_top (h a) hbc.1, by rw [EReal.neg_add (.inr hbc.1) (.inl (h a)), sub_eq_add_neg, hbc.2]⟩).2

-- Term by term `lse - g = -(g - lse)` on the reals, and on a row left out `lse - ⊥ = ⊤ = -⊥`.
theorem loss_eq {ι : Type} [Fintype ι] (ok : ι → Prop) [DecidablePred ok] (lse g : ι → EReal)
    (hl : ∀ i, lse i ≠ ⊥ ∧ lse i ≠ ⊤) (hg : ∀ i, g i ≠ ⊥ ∧ g i ≠ ⊤) :
    Ideal.div (0 + ∑ i, (lse i - if ok i then g i else ⊥)) (Ideal.ofBits .f32 0x45800000#32)
      = - Ideal.div (0 + ∑ i, if ok i then g i - lse i else ⊥) (Ideal.ofBits .f32 0x45800000#32) := by
  have h4096 : (4096 : ℝ) ≠ 0 := by norm_num
  have hne : ∀ i, (if ok i then g i - lse i else ⊥) ≠ ⊤ := fun i => by
    by_cases h : ok i
    · rw [if_pos h, sub_eq_add_neg]
      exact EReal.add_ne_top (hg i).2 fun e => (hl i).1 (EReal.neg_eq_top_iff.1 e)
    · rw [if_neg h]
      exact bot_ne_top
  rw [ofBits_4096, Ideal.div_coe h4096, Ideal.div_coe h4096, zero_add, zero_add, ← neg_mul, neg_sum _ _ hne]
  congr 1
  refine Finset.sum_congr rfl fun i _ => ?_
  by_cases h : ok i
  · rw [if_pos h, if_pos h, EReal.neg_sub (.inl (hg i).1) (.inl (hg i).2), add_comm, sub_eq_add_neg]
  · rw [if_neg h, if_neg h, EReal.neg_bot, sub_eq_add_neg, EReal.neg_bot, EReal.add_top_of_ne_bot (hl i).1]

end Cert.Spec.LseM
end
-- ==== Proof.Math.Compose.lean ====
import proofs.«419445_j27642409517469_3_alg».proof.Proof.Math.Flash
import proofs.«419445_j27642409517469_3_alg».proof.Proof.Math.Lse

noncomputable section

namespace Cert.Spec

open Idealize.ShloMosaic Cert.Spec.LseM

variable (x : Fin 2 → Fin 2048 → Fin 1024 → EReal) (wk wq : Fin 1024 → Fin 1024 → EReal) (wl : Fin 1024 → Fin 32000 → EReal)

def outK (r : Fin 4096) (d : Fin 1024) : EReal :=
  flashOut (proj3 x wq) (proj3 x wk) (proj3 x wq) (batchOf r) (posOf r) d

def outR (r : Fin 4096) (d : Fin 1024) : EReal :=
  softOut (proj3 x wq) (proj3 x wk) (proj3 x wq) (batchOf r) (posOf r) d

variable (hx : ∀ b t d, x b t d ≠ ⊥ ∧ x b t d ≠ ⊤) (hwk : ∀ d e, wk d e ≠ ⊥ ∧ wk d e ≠ ⊤)
  (hwq : ∀ d e, wq d e ≠ ⊥ ∧ wq d e ≠ ⊤) (hwl : ∀ d u, wl d u ≠ ⊥ ∧ wl d u ≠ ⊤)

include hx hwk hwq in
theorem outK_eq_outR : outK x wk wq = outR x wk wq :=
  funext₂ fun _ _ => flashOut_eq_softOut _ _ _ (proj3_finite x wq hx hwq) (proj3_finite x wk hx hwk) (proj3_finite x wq hx hwq) _ _ _

include hx hwk hwq in
theorem logitsK_eq_logitsR (r : Fin 4096) (u : Fin 32000) :
    logits (outK x wk wq) wl r u = logits (outR x wk wq) wl r u := by
  rw [outK_eq_outR x wk wq hx hwk hwq]

include hx hwk hwq hwl in
theorem lossK_eq_lossR {ι : Type} [Fintype ι] (row : ι → Fin 4096) (ok : ι → Prop) [DecidablePred ok] (col : ι → Fin 32000) :
    Ideal.div (0 + ∑ i, (lseOnline (logits (outK x wk wq) wl) (row i)
        - (if ok i then logits (outK x wk wq) wl (row i) (col i) else ⊥))) (Ideal.ofBits .f32 0x45800000#32)
      = - Ideal.div (0 + ∑ i, (if ok i then logSoftmaxRow (logits (outR x wk wq) wl (row i)) (col i) else ⊥))
          (Ideal.ofBits .f32 0x45800000#32) := by
  rw [outK_eq_outR x wk wq hx hwk hwq]
  have hq := proj3_finite x wq hx hwq
  have hfin : ∀ r u, logits (outR x wk wq) wl r u ≠ ⊥ ∧ logits (outR x wk wq) wl r u ≠ ⊤ := fun _ u =>
    fin_sum _ fun d => fin_mul (softOut_finite _ _ _ hq (proj3_finite x wk hx hwk) hq _ _ d) (hwl d u)
  simp only [logSoftmaxRow_eq _ hfin]
  exact loss_eq ok _ _ (fun i => lseOnline_finite _ hfin (row i)) fun i => hfin _ _

end Cert.Spec

end
-- ==== Proof.PreFinite.lean ====
import proofs.«419445_j27642409517469_3_alg».proof.Proof.Gen.Pre_finite_inputs
import Idealize.ShloMosaic.Lib.ReduceAll
import Idealize.ShloMosaic.Lib.ValueIdx

namespace Cert.PreFinite

open Idealize.ShloMosaic Cert.Pre_finite_inputs

-- An extended real whose absolute value `max a (-a)` compares below the word of `+∞` is neither infinity.
theorem elem_finite (a : EReal)
    (h : Ideal.cmp .olt (max a (-a)) (Ideal.ofBits .f32 0x7F800000#32) = 1#1) : a ≠ ⊥ ∧ a ≠ ⊤ := by
  constructor <;> rintro rfl <;> simp [Ideal.cmp, Ideal.ofBits, Ideal.ieee] at h

theorem all_finite {s : Shape} {axes : List (Fin s.rank)}
    (hb : S_.BroadcastsInDim s (![] : Fin 0 → Fin s.rank)) (hr : s.ReducesTo axes S_) (hu : 0 < S_.numel)
    (x : FVec Ideal s .f32) (j : S_.Idx)
    (e : Host.reduce IntOp.andi
          (cmpf .olt (Host.absf x) (broadcastInDim s ![] hb (constant (F := Ideal) S_ .f32 0x7F800000#32)))
          (constantI S_ 1 1#1) hr hu j = 1#1)
    (i : s.Idx) : x i ≠ ⊥ ∧ x i ≠ ⊤ :=
  elem_finite (x i) (Host.reduce_andi_all _ _ hr hu j e i)

theorem finite_of_pre (x0 x1 : IVec S2x2048 32) (x2 : FVec Ideal S32000x1024 .f32) (x3 : FVec Ideal S2048x1024 .f32)
    (x4 x5 x6 : FVec Ideal S1024x1024 .f32) (x7 : FVec Ideal S1024x32000 .f32)
    (h : Cert.Pre_finite_inputs.fn (F := Ideal) x0 x1 x2 x3 x4 x5 x6 x7 = fun _ => 1#1) :
    (∀ i, x2 i ≠ ⊥ ∧ x2 i ≠ ⊤) ∧ (∀ i, x3 i ≠ ⊥ ∧ x3 i ≠ ⊤) ∧ (∀ i, x4 i ≠ ⊥ ∧ x4 i ≠ ⊤)
      ∧ (∀ i, x5 i ≠ ⊥ ∧ x5 i ≠ ⊤) ∧ (∀ i, x6 i ≠ ⊥ ∧ x6 i ≠ ⊤) ∧ (∀ i, x7 i ≠ ⊥ ∧ x7 i ≠ ⊤) := by
  have h0 := congrFun h ValueIdx.ix0
  dsimp only [Cert.Pre_finite_inputs.fn, Cert.Pre_finite_inputs.fn_part1, Idealize.ShloMosaic.andi] at h0
  simp only [IntOp.andi_eq_one] at h0
  obtain ⟨⟨⟨⟨⟨h2, h3⟩, h4⟩, h5⟩, h6⟩, h7⟩ := h0
  exact ⟨all_finite _ _ _ x2 _ h2, all_finite _ _ _ x3 _ h3, all_finite _ _ _ x4 _ h4,
    all_finite _ _ _ x5 _ h5, all_finite _ _ _ x6 _ h6, all_finite _ _ _ x7 _ h7⟩

end Cert.PreFinite
-- ==== Proof.Ref.lean ====
import proofs.«419445_j27642409517469_3_alg».proof.Proof.RefReadP
import proofs.«419445_j27642409517469_3_alg».proof.Proof.Spec
import Idealize.ShloMosaic.PureOps.Reduce
import Idealize.ShloMosaic.PureOps.Ideal.Laws
import Idealize.ShloMosaic.Lib.IdealHost
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx Cert.Spec

abbrev Tok := (⟨S2x2048, .i32⟩ : BufTy).Contents (Elt Ideal)
abbrev Emb := (⟨S32000x1024, .f32⟩ : BufTy).Contents (Elt Ideal)
abbrev Pos := (⟨S2048x1024, .f32⟩ : BufTy).Contents (Elt Ideal)
abbrev Sq := (⟨S1024x1024, .f32⟩ : BufTy).Contents (Elt Ideal)
abbrev Lm := (⟨S1024x32000, .f32⟩ : BufTy).Contents (Elt Ideal)

variable (I T : Tok) (E : Emb) (Pp : Pos) (Wk Wq : Sq) (Wl : Lm)

def xR : (⟨S2x2048x1024, .f32⟩ : BufTy).Contents (Elt Ideal) := ReadP.val_main_v9 (F := Ideal) I E Pp

def Kr : Fin 2 → Fin 2048 → Fin 1024 → EReal := proj3 (cur3 (xR I E Pp)) (cur2 Wk)
def Qr : Fin 2 → Fin 2048 → Fin 1024 → EReal := proj3 (cur3 (xR I E Pp)) (cur2 Wq)

-- The keys, the queries and the values are one product of the embedded tokens with a square matrix.
theorem proj_ix (W : Sq) (b : Fin 2) (t : Fin 2048) (e : Fin 1024) :
    val_main_v10 I E Pp W (ix3 b t e) = proj3 (cur3 (xR I E Pp)) (cur2 W) b t e := by
  rw [val_main_v10_apply]
  unfold proj3
  refine Finset.sum_congr rfl fun k _ => ?_
  rw [show lidx_main_v10 (ix3 b t e) k = ix3 b t k from eq_ix3 _,
    show ridx_main_v10 (ix3 b t e) k = ix2 k e from eq_ix2 _]
  rfl

theorem v15_ix (b : Fin 2) (r c : Fin 2048) :
    val_main_v15 I E Pp Wk Wq (ix3 b r c) = score (Qr I E Pp Wq) (Kr I E Pp Wk) b r c := by
  rw [val_main_v15_apply, val_main_v13_apply]
  refine congrArg (fun s : EReal => s * _) (Finset.sum_congr rfl fun k _ => ?_)
  rw [show lidx_main_v13 (ix3 b r c) k = ix3 b r k from eq_ix3 _,
    show ridx_main_v13 (ix3 b r c) k = ix3 b c k from eq_ix3 _]
  exact congrArg₂ (· * ·) (proj_ix I E Pp Wq b r k) (proj_ix I E Pp Wk b c k)

theorem tril_word (r c : Fin 2048) :
    IntOp.cmpi .sge (IntOp.addi (BitVec.ofNat 32 r.val) 0#32) (BitVec.ofNat 32 c.val) = 1#1 ↔ c.val ≤ r.val := by
  have hr := r.isLt
  have hc := c.isLt
  rw [show IntOp.addi (BitVec.ofNat 32 r.val) 0#32 = _ from BitVec.add_zero _,
    StableHlo.Predicate.sge_iff_toNat (by simp [BitVec.toNat_ofNat]; omega) (by simp [BitVec.toNat_ofNat]; omega)]
  simp only [BitVec.toNat_ofNat]
  omega

theorem ofBits_neg_inf : Ideal.ofBits .f32 0xFF800000#32 = ⊥ := by
  simp [Ideal.ofBits, Ideal.ieee]

theorem v17_ix (r c : Fin 2048) :
    val_main_v17 (F := Ideal) (ix2 r c) = if c.val ≤ r.val then 1#1 else 0#1 :=
  if_congr (tril_word r c) rfl rfl

theorem v18_ix (b : Fin 2) (r c : Fin 2048) :
    val_main_v18 I E Pp Wk Wq (ix3 b r c) = masked (Qr I E Pp Wq) (Kr I E Pp Wk) b r c := by
  rw [val_main_v18_apply, val_main_call1_v1_apply, show idx_main_call1_v1 (ix3 b r c) = ix2 r c from eq_ix2 _,
    v17_ix, v15_ix, val_main_call1_v2_apply, val_main_call1_v0_apply, val_main_cst_2_apply]
  unfold masked
  by_cases h : c.val ≤ r.val
  · rw [if_pos h, if_pos h]; rfl
  · rw [if_neg h, if_neg h]; exact ofBits_neg_inf

theorem red2 : S2x2048x2048.Reduces [2] S2x2048 := by decide

abbrev sRow (b : Fin 2) (r : Fin 2048) : Fin 2048 → EReal :=
  fun c => masked (Qr I E Pp Wq) (Kr I E Pp Wk) b r c

theorem v19_ix (b : Fin 2) (r : Fin 2048) :
    val_main_v19 I E Pp Wk Wq (ix2 b r) = fmax (sRow I E Pp Wk Wq b r) := by
  unfold val_main_v19
  rw [Host.reduce_eq_fold_single FloatOps.maximumf _ _ reducesTo_S2x2048x2048_S2x2048_d2 red2 h_S_ (ix2 b r),
    show (val_main_v18 I E Pp Wk Wq ∘ red2.lift (ix2 b r)) = sRow I E Pp Wk Wq b r from
      funext fun c => (congrArg (val_main_v18 I E Pp Wk Wq) (eq_ix3 _)).trans (v18_ix I E Pp Wk Wq b r c)]
  exact congrArg (Finset.fold max · _ _) ofBits_neg_inf

theorem v25_ix (b : Fin 2) (r c : Fin 2048) :
    val_main_v25 I E Pp Wk Wq (ix3 b r c)
      = Ideal.exp (sRow I E Pp Wk Wq b r c - max ⊥ (fmax (sRow I E Pp Wk Wq b r))) := by
  rw [val_main_v25_apply, val_main_v24_apply, v18_ix, val_main_v23_apply, val_main_v22_apply,
    show idx_main_v22 (idx_main_v23 (ix3 b r c)) = ix2 b r from eq_ix2 _, val_main_v21_apply, v19_ix]
  exact congrArg (fun z : EReal => Ideal.exp (_ - max z _)) ofBits_neg_inf

theorem v30_ix (b : Fin 2) (r : Fin 2048) (d : Fin 1024) :
    val_main_v30 I E Pp Wk Wq (ix3 b r d) = softOut (Qr I E Pp Wq) (Kr I E Pp Wk) (Qr I E Pp Wq) b r d := by
  rw [val_main_v30_apply]
  unfold softOut attnRow
  refine Finset.sum_congr rfl fun c _ => ?_
  rw [show lidx_main_v30 (ix3 b r d) c = ix3 b r c from eq_ix3 _,
    show ridx_main_v30 (ix3 b r d) c = ix3 b c d from eq_ix3 _, val_main_v29_apply, v25_ix, val_main_v28_apply,
    val_main_v27_apply, show idx_main_v27 (idx_main_v28 (ix3 b r c)) = ix2 b r from eq_ix2 _, val_main_v26_apply]
  refine congrArg₂ (fun w v : EReal => w * v) (congrArg₂ (fun z s : EReal => Ideal.div _ (z + s))
    Ideal.ofBits_zero_f32 (Finset.sum_congr rfl fun c' _ => ?_)) (proj_ix I E Pp Wq b c d)
  rw [show idx_main_v26 (ix2 b r) c' = ix3 b r c' from eq_ix3 _, v25_ix]

abbrev oRow (r : Fin 4096) (d : Fin 1024) : EReal :=
  softOut (Qr I E Pp Wq) (Kr I E Pp Wk) (Qr I E Pp Wq) (batchOf r) (posOf r) d

theorem idx32_ix (r : Fin 4096) (u : Fin 32000) : idx_main_v32 (ix2 r u) = ix3 (batchOf r) (posOf r) u :=
  funext fun a => Fin.ext (by
    have hr := r.isLt
    have hu := u.isLt
    match a with
    | ⟨0, _⟩ => show (r.val * 32000 + u.val) / 65536000 = r.val / 2048; omega
    | ⟨1, _⟩ => show (r.val * 32000 + u.val) / 32000 % 2048 = r.val % 2048; omega
    | ⟨2, _⟩ => show (r.val * 32000 + u.val) % 32000 = u.val; omega)

theorem v32_ix (r : Fin 4096) (u : Fin 32000) :
    val_main_v32 I E Pp Wk Wq Wl (ix2 r u) = logits (oRow I E Pp Wk Wq) (cur2 Wl) r u := by
  rw [val_main_v32_apply, idx32_ix, val_main_v31_apply]
  refine Finset.sum_congr rfl fun k _ => ?_
  rw [show lidx_main_v31 (ix3 (batchOf r) (posOf r) u) k = ix3 (batchOf r) (posOf r) k from eq_ix3 _,
    show ridx_main_v31 (ix3 (batchOf r) (posOf r) u) k = ix2 k u from eq_ix2 _, v30_ix]
  rfl

theorem ref_logits (j : S4096x32000.Idx) :
    val_main_v32 (F := Ideal) I E Pp Wk Wq Wl j
      = logits (fun r d => softOut (Qr I E Pp Wq) (Kr I E Pp Wk) (Qr I E Pp Wq) (batchOf r) (posOf r) d)
          (cur2 Wl) (j 0) (j 1) :=
  (congrArg _ (eq_ix2 j)).trans (v32_ix I E Pp Wk Wq Wl (j 0) (j 1))

abbrev xRow (r : Fin 4096) : Fin 32000 → EReal :=
  fun u => logits (oRow I E Pp Wk Wq) (cur2 Wl) r u

theorem red1 : S4096x32000.Reduces [1] S4096 := by decide

theorem c2v0_ix (r : Fin 4096) :
    val_main_call2_v0 I E Pp Wk Wq Wl (ix1 r) = fmax (xRow I E Pp Wk Wq Wl r) := by
  unfold val_main_call2_v0
  rw [Host.reduce_eq_fold_single FloatOps.maximumf _ _ reducesTo_S4096x32000_S4096_d1 red1 h_S_ (ix1 r),
    show (val_main_v32 I E Pp Wk Wq Wl ∘ red1.lift (ix1 r)) = xRow I E Pp Wk Wq Wl r from
      funext fun u => (congrArg (val_main_v32 I E Pp Wk Wq Wl) (eq_ix2 _)).trans (v32_ix I E Pp Wk Wq Wl r u)]
  exact congrArg (Finset.fold max · _ _) ofBits_neg_inf

theorem c2v5_ix (r : Fin 4096) (u : Fin 32000) :
    val_main_call2_v5 I E Pp Wk Wq Wl (ix2 r u)
      = xRow I E Pp Wk Wq Wl r u - max ⊥ (fmax (xRow I E Pp Wk Wq Wl r)) := by
  rw [val_main_call2_v5_apply, v32_ix, val_main_call2_v4_apply, val_main_call2_v3_apply,
    show idx_main_call2_v3 (idx_main_call2_v4 (ix2 r u)) = ix1 r from eq_ix1 _, val_main_call2_v2_apply, c2v0_ix]
  exact congrArg (_ - max · _) ofBits_neg_inf

theorem c2v7_ix (r : Fin 4096) :
    val_main_call2_v7 I E Pp Wk Wq Wl (ix1 r)
      = 0 + ∑ u' : Fin 32000, Ideal.exp (xRow I E Pp Wk Wq Wl r u' - max ⊥ (fmax (xRow I E Pp Wk Wq Wl r))) := by
  rw [val_main_call2_v7_apply, val_main_call2_cst_1_apply]
  show Ideal.ofBits .f32 0x00000000#32 + _ = _
  rw [Ideal.ofBits_zero_f32]
  refine congrArg (fun s : EReal => 0 + s) (Finset.sum_congr rfl fun u _ => ?_)
  rw [show idx_main_call2_v7 (ix1 r) u = ix2 r u from eq_ix2 _, val_main_call2_v6_apply, c2v5_ix]
  rfl

theorem v34_ix (r : Fin 4096) (u : Fin 32000) :
    val_main_v34 I E Pp Wk Wq Wl (ix2 r u) = logSoftmaxRow (xRow I E Pp Wk Wq Wl r) u := by
  rw [val_main_v34_apply, c2v5_ix, val_main_call2_v10_apply, val_main_call2_v9_apply, val_main_call2_v8_apply,
    show idx_main_call2_v8 (idx_main_call2_v10 (ix2 r u)) = ix1 r from eq_ix1 _, c2v7_ix,
    Ideal.subf_def, Ideal.hostUnary_log_def]
  unfold logSoftmaxRow
  rfl

def gIdx (i : S4096x1.Idx) : S4096x32000.Idx :=
  gather_S4096x32000_S4096x1x1_S4096x1_n_1_0_0_1_2_11.operandIdx i (val_main_call3_v5 (F := Ideal) T)

def colR (i : S4096x1.Idx) : Fin 32000 := ⟨(gIdx T i 1).val, (gIdx T i 1).isLt⟩

theorem gIdx_row (i : S4096x1.Idx) : (gIdx T i 0).val = (i 0).val := by
  have hb : (0 : Fin S4096x32000.rank) ∈ gather_S4096x32000_S4096x1x1_S4096x1_n_1_0_0_1_2_11.operandBatchingDims := by decide
  show _ + _ + _ = _
  rw [GatherDims.start_batching _ _ _ _ hb,
    GatherDims.offCoord_eq_zero _ _ _ (fun h => ((GatherDims.mem_sKept _ _).mp h).2 hb)]
  unfold GatherDims.batchCoord
  rw [dif_pos hb]
  simp only [Nat.zero_add, Nat.add_zero]
  rfl

def okR (i : S4096x1.Idx) : Prop := val_main_call3_v12 (F := Ideal) T i = 1#1

instance (i : S4096x1.Idx) : Decidable (okR T i) := by unfold okR; infer_instance

theorem ofBits_nan : Ideal.ofBits .f32 0x7FC00000#32 = ⊥ := by
  simp [Ideal.ofBits, Ideal.ieee]

theorem v36_ix (r : Fin 4096) (z : Fin 1) :
    val_main_v36 I T E Pp Wk Wq Wl (ix2 r z)
      = if okR T (ix2 r z) then logSoftmaxRow (xRow I E Pp Wk Wq Wl r) (colR T (ix2 r z)) else ⊥ := by
  rw [val_main_v36_apply]
  show Scalar.select _ (val_main_v34 I E Pp Wk Wq Wl (gIdx T (ix2 r z))) _ = _
  rw [show gIdx T (ix2 r z) = ix2 r (colR T (ix2 r z)) from funext fun a => Fin.ext (by
      match a with
      | ⟨0, _⟩ => exact gIdx_row T (ix2 r z)
      | ⟨1, _⟩ => rfl), v34_ix]
  exact if_congr Iff.rfl rfl ofBits_nan

theorem ref_loss :
    val_main_v39 (F := Ideal) I T E Pp Wk Wq Wl ix0
      = - Ideal.div (0 + ∑ i : S4096x1.Idx,
          (if okR T i then
            logSoftmaxRow (fun u => logits
              (fun r d => softOut (Qr I E Pp Wq) (Kr I E Pp Wk) (Qr I E Pp Wq)
                (batchOf r) (posOf r) d) (cur2 Wl) (i 0) u) (colR T i)
           else ⊥)) (Ideal.ofBits .f32 0x45800000#32) := by
  rw [val_main_v39_apply, val_main_v38_apply, val_main_v37_apply]
  refine congrArg₂ (fun z s : EReal => - Ideal.div (z + s) _) Ideal.ofBits_zero_f32 (Finset.sum_congr rfl fun i _ => ?_)
  rw [eq_ix2 i]
  exact v36_ix I T E Pp Wk Wq Wl (i 0) (i 1)

end Cert.ReferenceIdeal.RefValue

end
-- ==== Proof.Cross.lean ====
import proofs.«419445_j27642409517469_3_alg».proof.Proof.KI.Host
import proofs.«419445_j27642409517469_3_alg».proof.Proof.Ref

noncomputable section

namespace Cert.Cross

open Idealize.ShloMosaic Cert.KernelIdeal Cert.ReferenceIdeal.RefValue Cert.ReferenceIdeal.ReadP

-- What the memory `m` holds in buffer `b` of device `c`.
abbrev cont {nD : Nat} {τ : Topo} {sig : RefSig} (m : (ℓ : Loc nD τ sig) → Buf (Elt Ideal) ℓ) (c : Dev nD)
    (b : Ref sig .tc) : Buf (Elt Ideal) ((c.tc : Thread nD τ).loc b) := m ((c.tc : Thread nD τ).loc b)

variable (m : (ℓ : Loc nD τ sig) → Buf (Elt Ideal) ℓ) (c : Dev nD)

-- Reshaping [2, 2048] to [4096, 1] at once, or to [4096] and then adding a unit axis, puts batch r / 2048, position r % 2048 in row r.
theorem tgtK_eq : Host.tgtK m c = val_main_v35 (F := Ideal) (cont m c main_arg1) := by
  funext i
  rw [val_main_v35_apply, val_main_v33_apply]
  refine shapeCast_apply (s := S2x2048) _ _ i _ ?_
  rw [Shape.rowMajor_val_two, Shape.rowMajor_val_two]
  have h1 : (i 1).val < 1 := (i 1).isLt
  show (i 0).val / 2048 * 2048 + (i 0).val % 2048 = (i 0).val * 1 + (i 1).val
  omega

-- The two in-range masks are one function of the target column.
theorem okK_iff_okR (i : S4096x1.Idx) : Host.okK m c i ↔ okR (cont m c main_arg1) i := by
  unfold Host.okK Host.maskK Host.startK
  rw [tgtK_eq]
  rfl

-- The two gathered columns are one function of the target column.
theorem colR_eq (i : S4096x1.Idx) : colR (cont m c main_arg1) i = Host.gidxK m c i 1 := by
  unfold Host.gidxK Host.startK
  rw [tgtK_eq]
  rfl

end Cert.Cross

end
-- ==== Proof.KI.Reg1Pay.lean ====
import proofs.«419445_j27642409517469_3_alg».proof.Proof.KI.Reg1State
import proofs.«419445_j27642409517469_3_alg».proof.Proof.Spec
import Idealize.ShloMosaic.Lib.ValueLayout
import Idealize.ShloMosaic.Lib.StackMember
import Idealize.ShloMosaic.PureOps.IdealRules

noncomputable section

namespace Cert.KernelIdeal

open Idealize.ShloMosaic Idealize.ShloMosaic.TcCoe Idealize.ShloMosaic.ValueIdx
open Cert.KernelIdeal.Gen

-- An m×k by k×n product into the zero accumulator, read at an index, is the sum over the contracted coordinate.
theorem matmul_zero_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims _ _ _) none A B (constant ⟨2, ![m, n]⟩ .f32 0x00000000#32) (ix2 a b)
      = ∑ c : Fin k, A (ix2 a c) * B (ix2 c b) :=
  (Ideal.matmul_constant_zero_apply _ none A B _).trans
    ((Ideal.dotGeneral_apply _ none .single A B _).symm.trans (StackMember.dotGeneral_plain_apply none A B a b))

theorem neg_big_eq : Named.named (F := Ideal) κ "neg_big" (φ := .f32) 0xFF333332#32 = (⊥ : EReal) :=
  IdealRules.named_const.ideal_named_scalar _ _ _ _ rfl

theorem col_apply {n : Nat} {α : Type} (x : (⟨1, ![n]⟩ : Shape).Idx → α) (h : (⟨1, ![n]⟩ : Shape).ShapeCasts ⟨2, ![n, 1]⟩)
    (p : Fin n) (q : Fin 1) : shapeCast ⟨2, ![n, 1]⟩ x h (ix2 p q) = x (ix1 p) := by
  refine shapeCast_apply x h (ix2 p q) (ix1 p) ?_
  rw [Shape.rowMajor_val_one, Shape.rowMajor_val_two]
  show p.val = p.val * 1 + q.val
  omega

theorem bcast_apply {n k : Nat} {α : Type} (x : (⟨2, ![n, 1]⟩ : Shape).Idx → α)
    (h : (⟨2, ![n, 1]⟩ : Shape).Broadcasts ⟨2, ![n, k]⟩) (p : Fin n) (c : Fin k) :
    broadcastTo ⟨2, ![n, k]⟩ x h (ix2 p c) = x (ix2 p (0 : Fin 1)) := by
  refine broadcastTo_apply x h (ix2 p c) (ix2 p (0 : Fin 1)) fun a => ?_
  match a with
  | ⟨0, _⟩ => have := p.isLt; show p.val = if n = 1 then 0 else p.val; split <;> omega
  | ⟨1, _⟩ => rfl

theorem ofBits_ninf : Ideal.ofBits .f32 0xFF800000#32 = (⊥ : EReal) := by
  simp [Ideal.ofBits, Ideal.ieee]

variable {n k : Nat} (y : FVec Ideal ⟨2, ![n, k]⟩ .f32) (h : (⟨2, ![n, k]⟩ : Shape).Reduces [1] ⟨1, ![n]⟩)
  (hc : (⟨1, ![n]⟩ : Shape).ShapeCasts ⟨2, ![n, 1]⟩) (hφ : FKind.Formats .f32) (p : Fin n) (f : Fin k → EReal)
  (hf : ∀ u, y (ix2 p u) = f u)

theorem lift_row (u : Fin k) : h.lift (ix1 p) u = ix2 p u :=
  Shape.idx_ext₂ rfl rfl

include hf

-- A row's maximum from minus infinity, as a column, is the maximum from bottom of what the row's entries are.
theorem rowmax_apply (hacc : (0xFF800000#32 : BitVec (FTy.bits .f32)) = FKind.maximumf.neutral .f32 hφ) :
    shapeCast ⟨2, ![n, 1]⟩ (multiReduction .maximumf [1] ⟨1, ![n]⟩ y 0xFF800000#32 h hφ hacc) hc (ix2 p (0 : Fin 1))
      = Cert.Spec.fmax f := by
  rw [col_apply, Ideal.multiReduction_maximumf_single,
    show y ∘ h.lift (ix1 p) = f from funext fun u => (congrArg y (lift_row h p u)).trans (hf u)]
  exact congrArg (Finset.univ.fold max · f) ofBits_ninf

-- A row's sum from zero, as a column, is the sum of what the row's entries are.
theorem rowsum_apply (hacc : (0x00000000#32 : BitVec (FTy.bits .f32)) = FKind.add.neutral .f32 hφ) :
    shapeCast ⟨2, ![n, 1]⟩ (multiReduction .add [1] ⟨1, ![n]⟩ y 0x00000000#32 h hφ hacc) hc (ix2 p (0 : Fin 1))
      = ∑ u, f u := by
  rw [col_apply, Ideal.multiReduction_add_single]
  exact Finset.sum_congr rfl fun u _ => (congrArg y (lift_row h p u)).trans (hf u)

end Cert.KernelIdeal

namespace Cert.KernelIdeal.Reg1

open Idealize.ShloMosaic Idealize.ShloMosaic.TcCoe Idealize.ShloMosaic.ValueIdx
open Cert.KernelIdeal Cert.KernelIdeal.Gen

def rowOf (s : St Ideal) (p : Fin 512) : Cert.Spec.Row 1024 :=
  ⟨s.m (ix2 p 0), s.l (ix2 p 0), fun d => s.acc (ix2 p d)⟩

def tileS (qi ki : ℕ) (q k : Blk Ideal) (p c : Fin 512) : EReal :=
  if 512 * ki + c.val ≤ 512 * qi + p.val then
    (∑ d : Fin 1024, q (ix3 0 p d) * k (ix3 0 c d)) * Ideal.ofBits .f32 0x3D000000#32
  else ⊥

theorem toInt_lin (a x : Nat) (ha : a < 4) (hx : x < 512) :
    (IntOp.addi (Scalar.muli (BitVec.ofNat 32 a) 512#32) (BitVec.ofNat 32 x)).toInt = ((512 * a + x : Nat) : Int) := by
  have e : (IntOp.addi (Scalar.muli (BitVec.ofNat 32 a) 512#32) (BitVec.ofNat 32 x)).toNat = 512 * a + x := by
    simp only [IntOp.addi, Scalar.muli, IntOp.muli, BitVec.toNat_add, BitVec.toNat_mul, BitVec.toNat_ofNat]
    omega
  rw [BitVec.toInt_eq_toNat_of_lt (by omega), e]

theorem reset_row (p : Fin 512) : rowOf (St.reset (F := Ideal)) p = Cert.Spec.Row.init 1024 :=
  congr (congr (congrArg Cert.Spec.Row.mk neg_big_eq) Ideal.ofBits_zero_f32) (funext fun _ => Ideal.ofBits_zero_f32)

theorem out_row (acc : Vec Ideal S512x1024 .f32) (l : Vec Ideal S512x1 .f32) (p : Fin 512) (d : Fin 1024) :
    k1_pay7 (F := Ideal) acc l (ix3 0 p d) = Ideal.div (acc (ix2 p d)) (l (ix2 p 0)) := by
  unfold k1_pay7
  refine (shapeCast_ab_1ab_apply _ _ _ p d).trans ?_
  exact congrArg (Ideal.div _) (bcast_apply l _ p d)

-- The masked scaled scores of a tile: the comparison of words below 2048 is the comparison of the numbers.
theorem pay9_apply (qi ki : ℕ) (hq : qi < 4) (hk : ki < 4) (q k : Blk Ideal) (p c : Fin 512) :
    k1_pay9 (F := Ideal) (BitVec.ofNat 32 qi) (BitVec.ofNat 32 ki) q k (ix2 p c) = tileS qi ki q k p c := by
  refine if_congr ?_ (congrArg (· * _) ((matmul_zero_apply _ _ _ p c).trans (Finset.sum_congr rfl fun d _ => ?_))) neg_big_eq
  · show IntOp.cmpi .sge (IntOp.addi (Scalar.muli _ _) (iota .tc S512x512 32 [0] _ (ix2 p c)))
      (IntOp.addi (Scalar.muli _ _) (iota .tc S512x512 32 [1] _ (ix2 p c))) = 1#1 ↔ _
    rw [iota_single_apply, iota_single_apply, IntOp.cmpi_sge, toInt_lin qi p.val hq p.isLt, toInt_lin ki c.val hk c.isLt]
    exact Int.ofNat_le
  · rw [shapeCast_1ab_ab_apply, transpose_ix2_apply, shapeCast_1ab_ab_apply]

-- One key tile folded into the state is one step of each row over the tile's masked scores and value rows.
theorem upd_row (qi ki : ℕ) (hq : qi < 4) (hk : ki < 4) (q k v : Blk Ideal) (s : St Ideal) (p : Fin 512) :
    rowOf (St.upd (BitVec.ofNat 32 qi) (BitVec.ofNat 32 ki) q k v s) p
      = (rowOf s p).step (tileS qi ki q k p) (fun c d => v (ix3 0 c d)) := by
  have h9 := pay9_apply qi ki hq hk q k p
  have hM : k1_pay10 (F := Ideal) _ _ q k s.m (ix2 p 0) = _ := congrArg (max _) (rowmax_apply _ _ _ _ p _ h9 _)
  have hE : k1_pay11 (F := Ideal) _ _ q k s.m s.m (ix2 p 0) = _ := congrArg (fun z => Ideal.exp (s.m (ix2 p 0) - z)) hM
  have hW (c) : k1_pay12 (F := Ideal) _ _ q k s.m (ix2 p c) = _ :=
    congrArg₂ (fun a b => Ideal.exp (a - b)) (h9 c) ((bcast_apply _ _ p c).trans hM)
  have hL : k1_pay13 (F := Ideal) _ _ q k s.m s.m s.l (ix2 p 0) = _ :=
    congrArg₂ (· * s.l (ix2 p 0) + ·) hE (rowsum_apply _ _ _ _ p _ hW _)
  simp only [rowOf, St.upd, Cert.Spec.Row.step, k1_pay4, k1_pay5, k1_pay6, shapeCast_self]
  exact congr (congr (congrArg Cert.Spec.Row.mk hM) hL) (funext fun d => congrArg₂ (· * s.acc (ix2 p d) + ·)
    ((bcast_apply _ _ p d).trans hE) ((matmul_zero_apply _ _ _ p d).trans
      (Finset.sum_congr rfl fun c _ => congrArg₂ (· * ·) (hW c) (shapeCast_1ab_ab_apply v _ c d))))

end Cert.KernelIdeal.Reg1

end
-- ==== Proof.KI.Reg0Value.lean ====
import proofs.«419445_j27642409517469_3_alg».proof.Proof.KI.Reg0
import proofs.«419445_j27642409517469_3_alg».proof.Proof.KI.Reg1Pay
import proofs.«419445_j27642409517469_3_alg».proof.Proof.Spec
import Idealize.ShloMosaic.Lib.Pipeline.Value
import Idealize.ShloMosaic.Lib.ValueIdx
import Idealize.ShloMosaic.PureOps.Ideal.Laws
set_option maxRecDepth 16384

noncomputable section

namespace Cert.KernelIdeal.Reg0

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

theorem pay2_apply (x w : Vec Ideal S1024x1024 .bf16) (p q : Fin 1024) :
    k0_pay2 (F := Ideal) x w (ix2 p q) = ∑ k : Fin 1024, x (ix2 p k) * w (ix2 k q) := by
  unfold k0_pay2 k0_pay1 dot_S1024x1024_S1024x1024_S1024x1024_1_0_0_1_n_n
  simp only [shapeCast_self]
  exact matmul_zero_apply (m := 1024) (k := 1024) (n := 1024) (φ₁ := .bf16) (φ₂ := .bf16) _ x w p q

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem zeros2 : (![0, 0] : Fin 2 → Nat) = fun _ => 0 := funext fun a => by fin_cases a <;> rfl

-- With x the rows of X that the block embedding e names and w all of W, the product block at y is row e y 0 of X against column e y 1 of W.
theorem outK_read (X : S4096x1024.Idx → EReal) (W : S1024x1024.Idx → EReal) (x w : Vec Ideal S1024x1024 .bf16)
    (e : S1024x1024.Idx → S4096x1024.Idx)
    (hx : ∀ (y : S1024x1024.Idx) (k : Fin 1024), x (ix2 (y 0) k) = X (ix2 (e y 0) k))
    (hw : ∀ (y : S1024x1024.Idx) (k : Fin 1024), w (ix2 k (y 1)) = W (ix2 k (e y 1)))
    (y : S1024x1024.Idx) :
    outK x w y = Cert.Spec.proj (Cert.Spec.cur2 X) (Cert.Spec.cur2 W) (e y 0) (e y 1) := by
  unfold outK
  rw [View.canon_unit_zero zeros2]
  simp only [View.ld_unit_zero (S := S1024x1024) zeros2]
  refine (congrArg (k0_pay2 x w) (eq_ix2 y)).trans ((pay2_apply x w (y 0) (y 1)).trans ?_)
  unfold Cert.Spec.proj Cert.Spec.cur2
  exact Finset.sum_congr rfl fun k _ => congrArg₂ (· * ·) (hx y k) (hw y k)

def G (V : Entry Ideal) (c : Dev nD) (W : S1024x1024.Idx → EReal) : S4096x1024.Idx → EReal :=
  fun j => Cert.Spec.proj (Cert.Spec.cur2 (V c main_v11)) (Cert.Spec.cur2 W) (j 0) (j 1)

theorem flushed_K (V : Entry Ideal) (c : Dev nD) (t : Fin cfg0.N) :
    (dat V c).flushed 3 t = ((cfg0.win 3).blk t).view.read (Elt Ideal) (G V c (V c main_v12)) := by
  show (cfg0.win 3).cut (grid0.coords t) ((dat V c).after 3 t) = _
  rw [after_3]
  obtain ⟨a00, a01, a10, a11, a20, a21, a30, a31, a40, a41⟩ := idx_facts t
  funext j
  refine outK_read (V c main_v11) (V c main_v12) (blk V c 0 t) (blk V c 1 t)
    (((cfg0.win 3).blk t).view.emb) (fun y k => ?_) (fun y k => ?_) j
  · show V c main_v11 (((cfg0.win 0).blk t).view.emb (ix2 (y 0) k)) = V c main_v11 (ix2 (((cfg0.win 3).blk t).view.emb y 0) k)
    refine congrArg (V c main_v11) (Shape.idx_ext₂ ?_ ?_)
    · show win0_0.index t (0 : Fin 2) * 1024 + 1 * (y 0).val = win0_3.index t (0 : Fin 2) * 1024 + 1 * (y 0).val
      omega
    · show win0_0.index t (1 : Fin 2) * 1024 + 1 * k.val = k.val
      omega
  · show V c main_v12 (((cfg0.win 1).blk t).view.emb (ix2 k (y 1))) = V c main_v12 (ix2 k (((cfg0.win 3).blk t).view.emb y 1))
    refine congrArg (V c main_v12) (Shape.idx_ext₂ ?_ ?_)
    · show win0_1.index t (0 : Fin 2) * 1024 + 1 * k.val = k.val
      omega
    · show win0_1.index t (1 : Fin 2) * 1024 + 1 * (y 1).val = win0_3.index t (1 : Fin 2) * 1024 + 1 * (y 1).val
      omega

theorem flushed_Q (V : Entry Ideal) (c : Dev nD) (t : Fin cfg0.N) :
    (dat V c).flushed 4 t = ((cfg0.win 4).blk t).view.read (Elt Ideal) (G V c (V c main_v13)) := by
  show (cfg0.win 4).cut (grid0.coords t) ((dat V c).after 4 t) = _
  rw [after_4]
  obtain ⟨a00, a01, a10, a11, a20, a21, a30, a31, a40, a41⟩ := idx_facts t
  funext j
  refine outK_read (V c main_v11) (V c main_v13) (blk V c 0 t) (blk V c 2 t)
    (((cfg0.win 4).blk t).view.emb) (fun y k => ?_) (fun y k => ?_) j
  · show V c main_v11 (((cfg0.win 0).blk t).view.emb (ix2 (y 0) k)) = V c main_v11 (ix2 (((cfg0.win 4).blk t).view.emb y 0) k)
    refine congrArg (V c main_v11) (Shape.idx_ext₂ ?_ ?_)
    · show win0_0.index t (0 : Fin 2) * 1024 + 1 * (y 0).val = win0_4.index t (0 : Fin 2) * 1024 + 1 * (y 0).val
      omega
    · show win0_0.index t (1 : Fin 2) * 1024 + 1 * k.val = k.val
      omega
  · show V c main_v13 (((cfg0.win 2).blk t).view.emb (ix2 k (y 1))) = V c main_v13 (ix2 k (((cfg0.win 4).blk t).view.emb y 1))
    refine congrArg (V c main_v13) (Shape.idx_ext₂ ?_ ?_)
    · show win0_2.index t (0 : Fin 2) * 1024 + 1 * k.val = k.val
      omega
    · show win0_2.index t (1 : Fin 2) * 1024 + 1 * (y 1).val = win0_4.index t (1 : Fin 2) * 1024 + 1 * (y 1).val
      omega

-- Row r of either output lies in the row block r / 1024.
theorem mem_rows {idx : Fin 2 → ℕ} (i : S4096x1024.Idx) (h0 : idx 0 = (i 0).val / 1024) (h1 : idx 1 = 0) (a : Fin 2) :
    idx a * S1024x1024.size a ≤ (i a).val ∧ (i a).val < idx a * S1024x1024.size a + S1024x1024.size a := by
  have hi1 : (i 1).val < 1024 := (i 1).isLt
  match a with
  | ⟨0, _⟩ =>
    show idx 0 * 1024 ≤ (i 0).val ∧ (i 0).val < idx 0 * 1024 + 1024
    omega
  | ⟨1, _⟩ =>
    show idx 1 * 1024 ≤ (i 1).val ∧ (i 1).val < idx 1 * 1024 + 1024
    omega

theorem cover_K (i : S4096x1024.Idx) : ∃ t : Fin cfg0.N, (cfg0.win 3).flush t = true ∧ i ∈ ((cfg0.win 3).blk t).view.set := by
  have hi0 : (i 0).val < 4096 := (i 0).isLt
  have hN : cfg0.N = 4 := N_0
  obtain ⟨t, ht⟩ : ∃ t : Fin cfg0.N, t.val = (i 0).val / 1024 := ⟨⟨_, by omega⟩, rfl⟩
  obtain ⟨-, -, -, -, -, -, e0, e1, -⟩ := idx_facts t
  refine ⟨t, flush0_3 t, ?_⟩
  show i ∈ ((View.whole main_v15_0).slice (win0_3.rect t)).set
  rw [View.set_slice_whole, Rect.mem_set_unit]
  exact mem_rows (idx := win0_3.index t) i (e0.trans ht) e1

theorem cover_Q (i : S4096x1024.Idx) : ∃ t : Fin cfg0.N, (cfg0.win 4).flush t = true ∧ i ∈ ((cfg0.win 4).blk t).view.set := by
  have hi0 : (i 0).val < 4096 := (i 0).isLt
  have hN : cfg0.N = 4 := N_0
  obtain ⟨t, ht⟩ : ∃ t : Fin cfg0.N, t.val = (i 0).val / 1024 := ⟨⟨_, by omega⟩, rfl⟩
  obtain ⟨-, -, -, -, -, -, -, -, e0, e1⟩ := idx_facts t
  refine ⟨t, flush0_4 t, ?_⟩
  show i ∈ ((View.whole main_v15_1).slice (win0_4.rect t)).set
  rw [View.set_slice_whole, Rect.mem_set_unit]
  exact mem_rows (idx := win0_4.index t) i (e0.trans ht) e1

theorem final_K (V : Entry Ideal) (c : Dev nD) : (dat V c).arrAt 3 cfg0.N = fun j => Cert.Spec.proj (Cert.Spec.cur2 (V c main_v11)) (Cert.Spec.cur2 (V c main_v12)) (j 0) (j 1) :=
  (dat V c).arrAt_eq_of_cover 3 (G V c (V c main_v12)) (fun t _ => flushed_K V c t) cover_K

theorem final_Q (V : Entry Ideal) (c : Dev nD) : (dat V c).arrAt 4 cfg0.N = fun j => Cert.Spec.proj (Cert.Spec.cur2 (V c main_v11)) (Cert.Spec.cur2 (V c main_v13)) (j 0) (j 1) :=
  (dat V c).arrAt_eq_of_cover 4 (G V c (V c main_v13)) (fun t _ => flushed_Q V c t) cover_Q

end Cert.KernelIdeal.Reg0

end
-- ==== Proof.KI.Reg1Value.lean ====
import proofs.«419445_j27642409517469_3_alg».proof.Proof.KI.Reg1State
import proofs.«419445_j27642409517469_3_alg».proof.Proof.KI.Reg1Pay
import proofs.«419445_j27642409517469_3_alg».proof.Proof.Spec
import Idealize.ShloMosaic.Lib.Pipeline.Value
import Idealize.ShloMosaic.Lib.ValueIdx

noncomputable section

namespace Cert.KernelIdeal.Reg1

open Idealize.ShloMosaic Idealize.ShloMosaic.TcCoe Idealize.ShloMosaic.ValueIdx
open Idealize.SL.Sem
open Idealize.ShloMosaic.Pipeline (Dat)
open Cert.KernelIdeal Cert.KernelIdeal.Gen

theorem idx_facts : ∀ t : Fin cfg1.N,
    (grid1.coords t 1).val = t.val / 4 % 4 ∧ (grid1.coords t 2).val = t.val % 4
    ∧ win1_0.index t 0 = t.val / 16 ∧ win1_0.index t 1 = t.val / 4 % 4 ∧ win1_0.index t 2 = 0
    ∧ win1_1.index t 0 = t.val / 16 ∧ win1_1.index t 1 = min (t.val % 4) (t.val / 4 % 4) ∧ win1_1.index t 2 = 0
    ∧ win1_2.index t 0 = t.val / 16 ∧ win1_2.index t 1 = min (t.val % 4) (t.val / 4 % 4) ∧ win1_2.index t 2 = 0
    ∧ win1_3.index t 0 = t.val / 16 ∧ win1_3.index t 1 = t.val / 4 % 4 ∧ win1_3.index t 2 = 0 :=
  (by decide +kernel : ∀ t : Fin grid1.N, _)

def bOf (n : ℕ) : Fin 2 := ⟨n / 16 % 2, Nat.mod_lt _ (by decide)⟩
def rOf (n : ℕ) (p : Fin 512) : Fin 2048 := ⟨512 * (n / 4 % 4) + p.val, by omega⟩

/-- An element of a block whose window sits at block index `idx` is the curried array's at batch `n / 16`, tile `j`, row `x`. -/
theorem read_at (A : S2x2048x1024.Idx → EReal) (e : S2x2048x1024.Idx) (idx : Fin 3 → ℕ) (x : Fin 512) (d : Fin 1024)
    (he : ∀ a, (e a).val = idx a * S1x512x1024.size a + 1 * (ix3 (0 : Fin 1) x d a).val) (n j : ℕ) (hj : j < 4)
    (h0 : idx 0 = n / 16) (h1 : idx 1 = j) (h2 : idx 2 = 0) (hn : n < 32) :
    A e = Cert.Spec.cur3 A (bOf n) (Cert.Spec.keyOf ⟨j, hj⟩ x) d :=
  congrArg A (funext fun a => Fin.ext (match a with
    | ⟨0, _⟩ => (he 0).trans (by show idx 0 * 1 + 1 * 0 = n / 16 % 2; omega)
    | ⟨1, _⟩ => (he 1).trans (by show idx 1 * 512 + 1 * x.val = 512 * j + x.val; omega)
    | ⟨2, _⟩ => (he 2).trans (by show idx 2 * 1024 + 1 * d.val = d.val; omega)))

abbrev QA (V : Entry Ideal) (c : Dev nD) : Fin 2 → Fin 2048 → Fin 1024 → EReal := Cert.Spec.cur3 (V c main_v17)
abbrev KA (V : Entry Ideal) (c : Dev nD) : Fin 2 → Fin 2048 → Fin 1024 → EReal := Cert.Spec.cur3 (V c main_v16)

def specRow (V : Entry Ideal) (c : Dev nD) (b : Fin 2) (r : Fin 2048) (j : ℕ) (hj : j ≤ 4) : Cert.Spec.Row 1024 :=
  Cert.Spec.Row.after (Cert.Spec.tileScores (QA V c) (KA V c) b r) (Cert.Spec.tileVals (QA V c) b) j hj

theorem specRow_congr (V : Entry Ideal) (c : Dev nD) {b b' : Fin 2} {r r' : Fin 2048} {j j' : ℕ} (hb : b = b') (hr : r = r')
    (hjj : j = j') (h : j ≤ 4) (h' : j' ≤ 4) : specRow V c b r j h = specRow V c b' r' j' h' := by
  subst hb hr hjj; rfl

theorem specRow_step (V : Entry Ideal) (c : Dev nD) (b : Fin 2) (r : Fin 2048) (j : ℕ) (hj : j < 4) (j' : ℕ) (hj' : j' ≤ 4)
    (e : j' = j + 1) :
    (specRow V c b r j (Nat.le_of_lt hj)).step (Cert.Spec.tileScores (QA V c) (KA V c) b r ⟨j, hj⟩) (Cert.Spec.tileVals (QA V c) b ⟨j, hj⟩)
      = specRow V c b r j' hj' := by
  subst e; rfl

theorem upd_at (V : Entry Ideal) (c : Dev nD) (t : Fin cfg1.N) (hle : t.val % 4 ≤ t.val / 4 % 4) (s : St Ideal) (p : Fin 512) :
    rowOf (St.upd (BitVec.ofNat 32 (grid1.coords t 1).val) (BitVec.ofNat 32 (grid1.coords t 2).val) (iblk V c 0 t) (iblk V c 1 t) (iblk V c 2 t) s) p
      = (rowOf s p).step (Cert.Spec.tileScores (QA V c) (KA V c) (bOf t.val) (rOf t.val p) ⟨t.val % 4, Nat.mod_lt _ (by decide)⟩)
          (Cert.Spec.tileVals (QA V c) (bOf t.val) ⟨t.val % 4, Nat.mod_lt _ (by decide)⟩) := by
  obtain ⟨g1, g2, a0, a1, a2, b0, b1, b2, c0, c1, c2, -⟩ := idx_facts t
  have ht : t.val < 32 := lt_of_lt_of_eq t.isLt N_1
  rw [g1, g2]
  have hq : t.val / 4 % 4 < 4 := Nat.mod_lt _ (by decide)
  have hk : t.val % 4 < 4 := Nat.mod_lt _ (by decide)
  have hS : tileS (t.val / 4 % 4) (t.val % 4) (iblk V c 0 t) (iblk V c 1 t) p
      = Cert.Spec.tileScores (QA V c) (KA V c) (bOf t.val) (rOf t.val p) ⟨t.val % 4, hk⟩ := by
    funext x
    unfold tileS Cert.Spec.tileScores Cert.Spec.masked Cert.Spec.score
    refine if_congr Iff.rfl ?_ rfl
    refine congrArg (fun z : EReal => z * Ideal.ofBits .f32 0x3D000000#32) ?_
    refine Finset.sum_congr rfl fun d _ => ?_
    exact congrArg₂ (· * ·)
      (read_at (V c main_v17) (((cfg1.win 0).blk t).view.emb (ix3 0 p d)) (win1_0.index t) p d (fun _ => rfl) t.val _ hq a0 a1 a2 ht)
      (read_at (V c main_v16) (((cfg1.win 1).blk t).view.emb (ix3 0 x d)) (win1_1.index t) x d (fun _ => rfl) t.val _ hk b0 (by omega) b2 ht)
  have hV : (fun (x : Fin 512) (d : Fin 1024) => (iblk V c 2 t : Blk Ideal) (ix3 0 x d))
      = Cert.Spec.tileVals (QA V c) (bOf t.val) ⟨t.val % 4, hk⟩ := by
    funext x d
    exact read_at (V c main_v17) (((cfg1.win 2).blk t).view.emb (ix3 0 x d)) (win1_2.index t) x d (fun _ => rfl) t.val _ hk c0 (by omega) c2 ht
  rw [upd_row (t.val / 4 % 4) (t.val % 4) hq hk (iblk V c 0 t) (iblk V c 1 t) (iblk V c 2 t) s p, hS, hV]

theorem step_row (V : Entry Ideal) (c : Dev nD) (n : ℕ) (h : n < cfg1.N) (s : St Ideal) (p : Fin 512)
    (hs : n % 4 ≠ 0 → rowOf s p = specRow V c (bOf n) (rOf n p) (min (n % 4) (n / 4 % 4 + 1)) (by omega)) :
    rowOf (stepAt V c ⟨n, h⟩ s) p = specRow V c (bOf n) (rOf n p) (min (n % 4) (n / 4 % 4) + 1) (by omega) := by
  have hrow : ∀ (j : ℕ) (hj : j ≤ 4), j = min (n % 4) (n / 4 % 4 + 1) →
      rowOf (St.pre ⟨n, h⟩ s) p = specRow V c (bOf n) (rOf n p) j hj := by
    intro j hj e
    unfold St.pre
    by_cases h0 : n % 4 = 0
    · rw [if_pos h0, reset_row]
      exact specRow_congr V c rfl rfl (by omega) (Nat.zero_le _) _
    · rw [if_neg h0, hs h0]
      exact specRow_congr V c rfl rfl e.symm _ _
  unfold stepAt
  by_cases hle : n % 4 ≤ n / 4 % 4
  · rw [if_pos hle, upd_at V c ⟨n, h⟩ hle, hrow (n % 4) (by omega) (by omega)]
    exact specRow_step V c (bOf n) (rOf n p) (n % 4) (Nat.mod_lt _ (by decide)) _ _ (by omega)
  · rw [if_neg hle]
    exact hrow _ _ (by omega)

theorem state_row (V : Entry Ideal) (c : Dev nD) : ∀ (n : ℕ) (h : n < cfg1.N) (p : Fin 512),
    rowOf (stAfter V c n h) p = specRow V c (bOf n) (rOf n p) (min (n % 4) (n / 4 % 4) + 1) (by omega)
  | 0, h, p => step_row V c 0 h _ p fun h0 => absurd rfl h0
  | n + 1, h, p => step_row V c (n + 1) h _ p fun h0 => (state_row V c n (Nat.lt_of_succ_lt h) p).trans
      (specRow_congr V c (Fin.ext (by simp only [bOf]; omega)) (Fin.ext (by simp only [rOf]; omega)) (by omega) _ _)

def GO (V : Entry Ideal) (c : Dev nD) : S2x2048x1024.Idx → EReal :=
  fun j => Cert.Spec.flashOut (QA V c) (KA V c) (QA V c) (j 0) (j 1) (j 2)

theorem out_blk (V : Entry Ideal) (c : Dev nD) (t : Fin cfg1.N) (h3 : t.val % 4 = 3) (p : Fin 512) (d : Fin 1024) :
    (outAt V c t : Blk Ideal) (ix3 0 p d) = Cert.Spec.flashOut (QA V c) (KA V c) (QA V c) (bOf t.val) (rOf t.val p) d := by
  unfold outAt
  rw [out_row]
  exact congrArg (fun R : Cert.Spec.Row 1024 => R.out d) ((state_row V c t.val t.isLt p).trans
    (specRow_congr V c rfl rfl (by simp only [rOf]; omega) _ (by have := (rOf t.val p).isLt; omega)))

theorem flushed_eq (V : Entry Ideal) (c : Dev nD) (t : Fin cfg1.N) (hf : (cfg1.win 3).flush t = true) :
    (dat V c).flushed 3 t = ((cfg1.win 3).blk t).view.read (Elt Ideal) (GO V c) := by
  have h3 : t.val % 4 = 3 := (flush1_3 t).mp hf
  have ht : t.val < 32 := lt_of_lt_of_eq t.isLt N_1
  obtain ⟨-, -, -, -, -, -, -, -, -, -, -, k0, k1, k2⟩ := idx_facts t
  show (cfg1.win 3).cut (grid1.coords t) ((dat V c).after 3 t) = _
  rw [after_3]
  funext y
  obtain ⟨a, p, d, rfl⟩ : ∃ (a : Fin 1) (p : Fin 512) (d : Fin 1024), y = ix3 a p d := ⟨y 0, y 1, y 2, eq_ix3 y⟩
  obtain rfl : a = 0 := Subsingleton.elim _ _
  rw [View.read_apply]
  show (outAt V c t : Blk Ideal) (ix3 0 p d) = GO V c _
  rw [out_blk V c t h3 p d]
  exact (read_at (GO V c) (((cfg1.win 3).blk t).view.emb (ix3 0 p d)) (win1_3.index t) p d (fun _ => rfl) t.val _ (Nat.mod_lt _ (by decide)) k0 k1 k2 ht).symm

theorem cover (i : S2x2048x1024.Idx) :
    ∃ t : Fin cfg1.N, (cfg1.win 3).flush t = true ∧ i ∈ ((cfg1.win 3).blk t).view.set := by
  have hb : (i 0).val < 2 := (i 0).isLt
  have hr : (i 1).val < 2048 := (i 1).isLt
  have hd : (i 2).val < 1024 := (i 2).isLt
  obtain ⟨t, ht⟩ : ∃ t : Fin cfg1.N, t.val = 16 * (i 0).val + 4 * ((i 1).val / 512) + 3 :=
    ⟨⟨_, lt_of_lt_of_eq (by omega) N_1.symm⟩, rfl⟩
  obtain ⟨-, -, -, -, -, -, -, -, -, -, -, k0, k1, k2⟩ := idx_facts t
  refine ⟨t, (flush1_3 t).mpr (by omega), ?_⟩
  show i ∈ ((View.whole main_v18).slice (win1_3.rect t)).set
  rw [View.set_slice_whole, Rect.mem_set_unit]
  intro a
  match a with
  | ⟨0, _⟩ =>
    show win1_3.index t 0 * 1 ≤ (i 0).val ∧ (i 0).val < win1_3.index t 0 * 1 + 1
    omega
  | ⟨1, _⟩ =>
    show win1_3.index t 1 * 512 ≤ (i 1).val ∧ (i 1).val < win1_3.index t 1 * 512 + 512
    omega
  | ⟨2, _⟩ =>
    show win1_3.index t 2 * 1024 ≤ (i 2).val ∧ (i 2).val < win1_3.index t 2 * 1024 + 1024
    omega

theorem final_O (V : Entry Ideal) (c : Dev nD) :
    (dat V c).arrAt 3 cfg1.N = fun j : S2x2048x1024.Idx =>
      Cert.Spec.flashOut (Cert.Spec.cur3 (V c main_v17)) (Cert.Spec.cur3 (V c main_v16)) (Cert.Spec.cur3 (V c main_v17)) (j 0) (j 1) (j 2) :=
  (dat V c).arrAt_eq_of_cover 3 (GO V c) (flushed_eq V c) cover

end Cert.KernelIdeal.Reg1

end
-- ==== Proof.KI.Value.lean ====
import proofs.«419445_j27642409517469_3_alg».proof.Proof.KI.Host
import proofs.«419445_j27642409517469_3_alg».proof.Proof.Math.Compose
import proofs.«419445_j27642409517469_3_alg».proof.Proof.KI.Reg0Value
import proofs.«419445_j27642409517469_3_alg».proof.Proof.KI.Reg1Value
import proofs.«419445_j27642409517469_3_alg».proof.Proof.KI.Run

noncomputable section

namespace Cert.KernelIdeal.Value

open Idealize.ShloMosaic Idealize.ShloMosaic.TcCoe Idealize.SL.Sem
open Idealize.ShloMosaic.ValueIdx
open Cert.KernelIdeal

variable (m : (ℓ : Loc nD τ sig) → Buf (Elt Ideal) ℓ) (c : Dev nD)

abbrev xs : Fin 2 → Fin 2048 → Fin 1024 → EReal := Cert.Spec.cur3 (Host.xK m c)

abbrev wk : Fin 1024 → Fin 1024 → EReal := Cert.Spec.cur2 (m ((c : Thread nD τ).loc main_arg4))
abbrev wq : Fin 1024 → Fin 1024 → EReal := Cert.Spec.cur2 (m ((c : Thread nD τ).loc main_arg5))

section Chain

variable (outs : Gen.Outs (F := Ideal))

theorem x2d_eq (r : Fin 4096) (d : Fin 1024) :
    Cert.Spec.cur2 (Gen.V1 m c main_v11) r d = xs m c (Cert.Spec.batchOf r) (Cert.Spec.posOf r) d :=
  Host.V1_v11 m c (ix2 r d)

variable (hK : outs 2 main_v15_0 c = fun j => Cert.Spec.proj (Cert.Spec.cur2 (Gen.V1 m c main_v11)) (Cert.Spec.cur2 (Gen.V1 m c main_v12)) (j 0) (j 1))
  (hQ : outs 2 main_v15_1 c = fun j => Cert.Spec.proj (Cert.Spec.cur2 (Gen.V1 m c main_v11)) (Cert.Spec.cur2 (Gen.V1 m c main_v13)) (j 0) (j 1))
  (hO : outs 4 main_v18 c = fun j => Cert.Spec.flashOut (Cert.Spec.cur3 (Gen.V3 m outs c main_v17)) (Cert.Spec.cur3 (Gen.V3 m outs c main_v16)) (Cert.Spec.cur3 (Gen.V3 m outs c main_v17)) (j 0) (j 1) (j 2))

include hK in

theorem keys_eq : Cert.Spec.cur3 (Gen.V3 m outs c main_v16) = Cert.Spec.proj3 (xs m c) (wk m c) := by
  funext b t e
  show Gen.V3 m outs c main_v16 (ix3 b t e) = _
  rw [Host.V3_v16, hK]
  show Cert.Spec.proj (Cert.Spec.cur2 (Gen.V1 m c main_v11)) (Cert.Spec.cur2 (Gen.V1 m c main_v12)) (Cert.Spec.rowOf b t) e = _
  rw [Host.V1_v12]
  exact Cert.Spec.proj_rowOf _ (xs m c) _ (x2d_eq m c) b t e

include hQ in

theorem queries_eq : Cert.Spec.cur3 (Gen.V3 m outs c main_v17) = Cert.Spec.proj3 (xs m c) (wq m c) := by
  funext b t e
  show Gen.V3 m outs c main_v17 (ix3 b t e) = _
  rw [Host.V3_v17, hQ]
  show Cert.Spec.proj (Cert.Spec.cur2 (Gen.V1 m c main_v11)) (Cert.Spec.cur2 (Gen.V1 m c main_v13)) (Cert.Spec.rowOf b t) e = _
  rw [Host.V1_v13]
  exact Cert.Spec.proj_rowOf _ (xs m c) _ (x2d_eq m c) b t e

include hK hQ hO in

theorem attn_eq : Cert.Spec.cur2 (Gen.V5 m outs c main_v19) = Cert.Spec.outK (xs m c) (wk m c) (wq m c) := by
  funext r d
  show Gen.V5 m outs c main_v19 (ix2 r d) = _
  rw [Host.V5_v19, hO, keys_eq m c outs hK, queries_eq m c outs hQ]
  rfl

end Chain

theorem v19_eq : Cert.Spec.cur2 (Gen.V5 m (Run.outs m) c main_v19)
    = Cert.Spec.outK (Cert.Spec.cur3 (Host.xK m c)) (Cert.Spec.cur2 (m ((c : Thread nD τ).loc main_arg4))) (Cert.Spec.cur2 (m ((c : Thread nD τ).loc main_arg5))) :=
  attn_eq m c (Run.outs m)
    ((Run.outs_2_main_v15_0 m c).trans (Reg0.final_K (Run.entryV1 m) c))
    ((Run.outs_2_main_v15_1 m c).trans (Reg0.final_Q (Run.entryV1 m) c))
    ((Run.outs_4_main_v18 m c).trans (Reg1.final_O (Run.entryV3 m) c))

theorem v14_eq : Cert.Spec.cur2 (Gen.V5 m (Run.outs m) c main_v14) = Cert.Spec.cur2 (m ((c : Thread nD τ).loc main_arg7)) := by
  rw [Host.V5_v14]

end Cert.KernelIdeal.Value

end
-- ==== Proof.KI.Reg2Pay.lean ====
import proofs.«419445_j27642409517469_3_alg».proof.Proof.KI.Reg2State
import proofs.«419445_j27642409517469_3_alg».proof.Proof.KI.Reg1Pay

noncomputable section

namespace Cert.KernelIdeal.Reg2

open Idealize.ShloMosaic Idealize.ShloMosaic.ValueIdx
open Cert.KernelIdeal Cert.KernelIdeal.Gen

def lseOfRow (s : St Ideal) (p : Fin 2048) : Cert.Spec.Lse := ⟨s.1 (ix2 p (0 : Fin 1)), s.2 (ix2 p (0 : Fin 1))⟩

theorem st0_row (p : Fin 2048) : lseOfRow (st0 (F := Ideal)) p = Cert.Spec.Lse.init :=
  congr (congrArg Cert.Spec.Lse.mk neg_big_eq) Ideal.ofBits_zero_f32

theorem out_row (s : St Ideal) (p : Fin 2048) :
    k2_pay1 (F := Ideal) s.1 s.2 (ix2 p (0 : Fin 1)) = (lseOfRow s p).out := rfl

theorem pay4_apply (xb : Vec Ideal S2048x1024 .bf16) (wb : Vec Ideal S1024x640 .bf16) (p : Fin 2048) (u : Fin 640) :
    k2_pay4 (F := Ideal) xb wb (ix2 p u) = ∑ d : Fin 1024, xb (ix2 p d) * wb (ix2 d u) := by
  simp only [k2_pay4, shapeCast_self]
  exact matmul_zero_apply _ xb wb p u

-- One vocabulary tile absorbed is one step of the specification on the row's 640 products.
theorem upd_row (xb : Vec Ideal S2048x1024 .bf16) (wb : Vec Ideal S1024x640 .bf16) (s : St Ideal) (p : Fin 2048) :
    lseOfRow (upd xb wb s) p
      = (lseOfRow s p).step (fun u : Fin 640 => ∑ d : Fin 1024, xb (ix2 p d) * wb (ix2 d u)) := by
  have hM : k2_pay5 (F := Ideal) xb wb s.1 (ix2 p 0) = _ := congrArg (max _) (rowmax_apply _ _ _ _ p _ (pay4_apply xb wb p) _)
  simp only [lseOfRow, upd, Cert.Spec.Lse.step, k2_pay6, k2_pay7, shapeCast_self]
  refine congr (congrArg Cert.Spec.Lse.mk hM) ?_
  exact congrArg₂ (· * s.2 (ix2 p 0) + ·) (congrArg (fun z => Ideal.exp (s.1 (ix2 p 0) - z)) hM)
    (rowsum_apply _ _ _ _ p _ (fun u => congrArg₂ (fun a b => Ideal.exp (a - b)) (pay4_apply xb wb p u)
      ((bcast_apply _ _ p u).trans hM)) _)

end Cert.KernelIdeal.Reg2

end
-- ==== Proof.KI.Reg2Value.lean ====
import proofs.«419445_j27642409517469_3_alg».proof.Proof.KI.Reg2Pay
import proofs.«419445_j27642409517469_3_alg».proof.Proof.Spec
import Idealize.ShloMosaic.Lib.ValueIdx
import Idealize.ShloMosaic.Lib.Pipeline.Value

noncomputable section

namespace Cert.KernelIdeal.Reg2

open Idealize.ShloMosaic Idealize.ShloMosaic.TcCoe Idealize.ShloMosaic.ValueIdx Idealize.SL.Sem
open Idealize.ShloMosaic.Pipeline (Dat)
open Cert.KernelIdeal Cert.KernelIdeal.Gen

theorem idx_facts : ∀ t : Fin cfg2.N,
    win2_0.index t (0 : Fin 2) = t.val / 50 ∧ win2_0.index t (1 : Fin 2) = 0
    ∧ win2_1.index t (0 : Fin 2) = 0 ∧ win2_1.index t (1 : Fin 2) = t.val % 50
    ∧ win2_2.index t (0 : Fin 2) = t.val / 50 ∧ win2_2.index t (1 : Fin 2) = t.val % 50
    ∧ win2_3.index t (0 : Fin 2) = t.val / 50 ∧ win2_3.index t (1 : Fin 2) = 0 :=
  (by decide +kernel : ∀ t : Fin grid2.N, _)

theorem t_lt (t : Fin cfg2.N) : t.val < 100 := lt_of_lt_of_eq t.isLt N_2

variable {F : FTy → Type} [FloatOps F] [Named F]

abbrev xbAt (V : Entry F) (c : Dev nD) (t : Fin cfg2.N) : Vec F S2048x1024 .bf16 := iblk V c 0 t
abbrev wbAt (V : Entry F) (c : Dev nD) (t : Fin cfg2.N) : Vec F S1024x640 .bf16 := iblk V c 1 t

abbrev xArr (V : Entry F) (c : Dev nD) : S4096x1024.Idx → Elt F .bf16 := V c main_v19
abbrev wArr (V : Entry F) (c : Dev nD) : S1024x32000.Idx → Elt F .bf16 := V c main_v14

abbrev LG (V : Entry Ideal) (c : Dev nD) : Fin 4096 → Fin 32000 → EReal :=
  Cert.Spec.logits (Cert.Spec.cur2 (V c main_v19)) (Cert.Spec.cur2 (V c main_v14))

theorem tile_apply (V : Entry Ideal) (c : Dev nD) (t : Fin cfg2.N) (p : Fin 2048) (u : Fin 640)
    (r : Fin 4096) (hr : r.val = 2048 * (t.val / 50) + p.val) (q : Fin 32000) (hq : q.val = 640 * (t.val % 50) + u.val) :
    ∑ d : Fin 1024, xbAt V c t (ix2 p d) * wbAt V c t (ix2 d u) = LG V c r q := by
  obtain ⟨e0, e1, e2, e3, -⟩ := idx_facts t
  show _ = ∑ d : Fin 1024, xArr V c (ix2 r d) * wArr V c (ix2 d q)
  refine Finset.sum_congr rfl fun d _ => congrArg₂ (· * ·) ?_ ?_
  · exact congrArg (xArr V c) (Shape.idx_ext₂
      (by show win2_0.index t (0 : Fin 2) * 2048 + 1 * p.val = r.val; omega)
      (by show win2_0.index t (1 : Fin 2) * 1024 + 1 * d.val = d.val; omega))
  · exact congrArg (wArr V c) (Shape.idx_ext₂
      (by show win2_1.index t (0 : Fin 2) * 1024 + 1 * d.val = d.val; omega)
      (by show win2_1.index t (1 : Fin 2) * 640 + 1 * u.val = q.val; omega))

def rowAt (i : Fin 2) (p : Fin 2048) : Fin 4096 := ⟨2048 * i.val + p.val, by omega⟩

def tilesAt (V : Entry Ideal) (c : Dev nD) (i : Fin 2) (p : Fin 2048) : Fin 50 → Fin 640 → EReal :=
  fun j u => LG V c (rowAt i p) (Cert.Spec.colOf j u)

theorem tile_eq (V : Entry Ideal) (c : Dev nD) (i : Fin 2) (j : ℕ) (hj : j < 50) (p : Fin 2048) (t : Fin cfg2.N)
    (ht : t.val = 50 * i.val + j) :
    (fun u : Fin 640 => ∑ d : Fin 1024, xbAt V c t (ix2 p d) * wbAt V c t (ix2 d u)) = tilesAt V c i p ⟨j, hj⟩ :=
  funext fun u => tile_apply V c t p u (rowAt i p) (by show 2048 * i.val + p.val = _; omega)
    (Cert.Spec.colOf ⟨j, hj⟩ u) (by show 640 * j + u.val = _; omega)

-- Grid point 50 i + j has folded the first j + 1 vocabulary tiles into row p of batch i.
theorem stAfter_row (V : Entry Ideal) (c : Dev nD) (i : Fin 2) (p : Fin 2048) :
    ∀ (j : ℕ) (hj : j < 50) (t : Fin cfg2.N), t.val = 50 * i.val + j →
      lseOfRow (stAfter V c t.val t.isLt) p = Cert.Spec.Lse.after (tilesAt V c i p) (j + 1) (by omega)
  | 0, hj, t, ht => by
    rw [stAfter_first V c t (by omega), upd_row, st0_row]
    exact congrArg Cert.Spec.Lse.init.step (tile_eq V c i 0 hj p t ht)
  | j + 1, hj, t, ht => by
    have hN := t.isLt
    rw [stAfter_next V c t (by omega), upd_row]
    exact congrArg₂ Cert.Spec.Lse.step (stAfter_row V c i p j (by omega) ⟨t.val - 1, by omega⟩ (by show t.val - 1 = _; omega))
      (tile_eq V c i (j + 1) hj p t ht)

abbrev G2 (V : Entry Ideal) (c : Dev nD) : S4096x32000.Idx → Elt Ideal .f32 := fun j => LG V c (j 0) (j 1)

theorem flushed2_eq (V : Entry Ideal) (c : Dev nD) (t : Fin cfg2.N) :
    (dat V c).flushed 2 t = ((cfg2.win 2).blk t).view.read (Elt Ideal) (G2 V c) := by
  funext (y : S2048x640.Idx)
  obtain ⟨p, u, rfl⟩ : ∃ (p : Fin 2048) (u : Fin 640), y = ix2 p u := ⟨y 0, y 1, eq_ix2 y⟩
  show (dat V c).after 2 t (ix2 p u) = G2 V c (((cfg2.win 2).blk t).view.emb (ix2 p u))
  rw [after_2, pay4_apply]
  obtain ⟨-, -, -, -, e4, e5, -⟩ := idx_facts t
  have h1 := t_lt t
  exact tile_apply V c t p u _ (by show win2_2.index t (0 : Fin 2) * 2048 + 1 * p.val = _; omega)
    _ (by show win2_2.index t (1 : Fin 2) * 640 + 1 * u.val = _; omega)

theorem cover2 (i : S4096x32000.Idx) :
    ∃ t : Fin cfg2.N, (cfg2.win 2).flush t = true ∧ i ∈ ((cfg2.win 2).blk t).view.set := by
  have h0 : (i 0).val < 4096 := (i 0).isLt
  have h1 : (i 1).val < 32000 := (i 1).isLt
  have hN : cfg2.N = 100 := N_2
  obtain ⟨t, ht⟩ : ∃ t : Fin cfg2.N, t.val = 50 * ((i 0).val / 2048) + (i 1).val / 640 := ⟨⟨_, by omega⟩, rfl⟩
  obtain ⟨-, -, -, -, e4, e5, -⟩ := idx_facts t
  refine ⟨t, flush2_2 t, ?_⟩
  show i ∈ ((View.whole main_v20_0).slice (win2_2.rect t)).set
  rw [View.set_slice_whole, Rect.mem_set_unit]
  intro a
  match a with
  | ⟨0, _⟩ =>
    show win2_2.index t (0 : Fin 2) * 2048 ≤ (i 0).val ∧ (i 0).val < win2_2.index t (0 : Fin 2) * 2048 + 2048
    omega
  | ⟨1, _⟩ =>
    show win2_2.index t (1 : Fin 2) * 640 ≤ (i 1).val ∧ (i 1).val < win2_2.index t (1 : Fin 2) * 640 + 640
    omega

theorem final_logits (V : Entry Ideal) (c : Dev nD) :
    (dat V c).arrAt 2 cfg2.N = fun j => Cert.Spec.logits (Cert.Spec.cur2 (V c main_v19)) (Cert.Spec.cur2 (V c main_v14)) (j 0) (j 1) :=
  (dat V c).arrAt_eq_of_cover 2 (G2 V c) (fun t _ => flushed2_eq V c t) cover2

abbrev G3 (V : Entry Ideal) (c : Dev nD) : S4096x1.Idx → Elt Ideal .f32 := fun j => Cert.Spec.lseOnline (LG V c) (j 0)

theorem flushed3_eq (V : Entry Ideal) (c : Dev nD) (t : Fin cfg2.N) (hf : (cfg2.win 3).flush t = true) :
    (dat V c).flushed 3 t = ((cfg2.win 3).blk t).view.read (Elt Ideal) (G3 V c) := by
  have h49 : t.val % 50 = 49 := (flush2_3 t).mp hf
  have h1 := t_lt t
  funext (y : S2048x1.Idx)
  obtain ⟨p, q, rfl⟩ : ∃ (p : Fin 2048) (q : Fin 1), y = ix2 p q := ⟨y 0, y 1, eq_ix2 y⟩
  obtain rfl : q = 0 := Subsingleton.elim _ _
  show (dat V c).after 3 t (ix2 p 0) = G3 V c (((cfg2.win 3).blk t).view.emb (ix2 p 0))
  rw [after_3, out_row]
  obtain ⟨-, -, -, -, -, -, e6, e7⟩ := idx_facts t
  have hi : t.val / 50 < 2 := by omega
  rw [stAfter_row V c ⟨t.val / 50, hi⟩ p 49 (by omega) t (by show t.val = 50 * (t.val / 50) + 49; omega)]
  exact congrArg (Cert.Spec.lseOnline (LG V c))
    (Fin.ext (by show 2048 * (t.val / 50) + p.val = win2_3.index t (0 : Fin 2) * 2048 + 1 * p.val; omega))

theorem cover3 (i : S4096x1.Idx) :
    ∃ t : Fin cfg2.N, (cfg2.win 3).flush t = true ∧ i ∈ ((cfg2.win 3).blk t).view.set := by
  have h0 : (i 0).val < 4096 := (i 0).isLt
  have h1 : (i 1).val < 1 := (i 1).isLt
  have hN : cfg2.N = 100 := N_2
  obtain ⟨t, ht⟩ : ∃ t : Fin cfg2.N, t.val = 50 * ((i 0).val / 2048) + 49 := ⟨⟨_, by omega⟩, rfl⟩
  obtain ⟨-, -, -, -, -, -, e6, e7⟩ := idx_facts t
  refine ⟨t, (flush2_3 t).mpr (by omega), ?_⟩
  show i ∈ ((View.whole main_v20_1).slice (win2_3.rect t)).set
  rw [View.set_slice_whole, Rect.mem_set_unit]
  intro a
  match a with
  | ⟨0, _⟩ =>
    show win2_3.index t (0 : Fin 2) * 2048 ≤ (i 0).val ∧ (i 0).val < win2_3.index t (0 : Fin 2) * 2048 + 2048
    omega
  | ⟨1, _⟩ =>
    show win2_3.index t (1 : Fin 2) * 1 ≤ (i 1).val ∧ (i 1).val < win2_3.index t (1 : Fin 2) * 1 + 1
    omega

theorem final_lse (V : Entry Ideal) (c : Dev nD) :
    (dat V c).arrAt 3 cfg2.N = fun j => Cert.Spec.lseOnline
      (Cert.Spec.logits (Cert.Spec.cur2 (V c main_v19)) (Cert.Spec.cur2 (V c main_v14))) (j 0) :=
  (dat V c).arrAt_eq_of_cover 3 (G3 V c) (fun t hf => flushed3_eq V c t hf) cover3

end Cert.KernelIdeal.Reg2

end
-- ==== Proof.KI.Value2.lean ====
import proofs.«419445_j27642409517469_3_alg».proof.Proof.KI.Value
import proofs.«419445_j27642409517469_3_alg».proof.Proof.KI.Host
import proofs.«419445_j27642409517469_3_alg».proof.Proof.KI.Reg2Value
import proofs.«419445_j27642409517469_3_alg».proof.Proof.KI.Run
import proofs.«419445_j27642409517469_3_alg».proof.Proof.Math.Compose
import proofs.«419445_j27642409517469_3_alg».proof.Proof.Spec
import Idealize.ShloMosaic.Lib.ValueIdx

noncomputable section

namespace Cert.KernelIdeal.Value

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

abbrev LK : Fin 4096 → Fin 32000 → EReal :=
  Cert.Spec.logits
    (Cert.Spec.outK (Cert.Spec.cur3 (Host.xK m c)) (Cert.Spec.cur2 (m ((c : Thread nD τ).loc main_arg4)))
      (Cert.Spec.cur2 (m ((c : Thread nD τ).loc main_arg5))))
    (Cert.Spec.cur2 (m ((c : Thread nD τ).loc main_arg7)))

def colK (i : S4096x1.Idx) : Fin 32000 := Host.gidxK m c i 1

theorem gidxK_eq (i : S4096x1.Idx) : Host.gidxK m c i = ix2 (i 0) (colK m c i) :=
  (eq_ix2 (Host.gidxK m c i)).trans (by rw [Host.gidxK_row]; rfl)

-- The last region is entered with the attention rows and the head's weights, so its logits are the kernel's.
theorem LG_eq : Cert.Spec.logits (Cert.Spec.cur2 (Gen.V5 m (Run.outs m) c main_v19))
    (Cert.Spec.cur2 (Gen.V5 m (Run.outs m) c main_v14)) = LK m c := by
  have e19 : (Cert.Spec.cur2 (Gen.V5 m (Run.outs m) c main_v19) : Fin 4096 → Fin 1024 → EReal) = _ := v19_eq m c
  have e14 : (Cert.Spec.cur2 (Gen.V5 m (Run.outs m) c main_v14) : Fin 1024 → Fin 32000 → EReal) = _ := v14_eq m c
  rw [e19, e14]

theorem outs6_logits : Run.outs m 6 main_v20_0 c = fun j : S4096x32000.Idx => LK m c (j 0) (j 1) :=
  (Run.outs_6_main_v20_0 m c).trans ((Reg2.final_logits (Run.entryV5 m) c).trans
    (congrArg (fun L (j : S4096x32000.Idx) => L (j 0) (j 1)) (LG_eq m c)))

theorem outs6_lse : Run.outs m 6 main_v20_1 c = fun j : S4096x1.Idx => Cert.Spec.lseOnline (LK m c) (j 0) :=
  (Run.outs_6_main_v20_1 m c).trans ((Reg2.final_lse (Run.entryV5 m) c).trans
    (congrArg (fun L (j : S4096x1.Idx) => Cert.Spec.lseOnline L (j 0)) (LG_eq m c)))

theorem kernel_logits (j : S4096x32000.Idx) : Gen.V9 m (Run.outs m) c main_v20_0 j = LK m c (j 0) (j 1) := by
  rw [Host.V9_v20_0, outs6_logits]

theorem kernel_loss :
    Gen.V9 m (Run.outs m) c main_v25 ix0
      = Ideal.div (0 + ∑ i : S4096x1.Idx, (Cert.Spec.lseOnline (LK m c) (i 0)
          - (if Host.okK m c i then LK m c (i 0) (colK m c i) else ⊥))) (Ideal.ofBits .f32 0x45800000#32) := by
  have h0 := outs6_logits m c
  have h1 := outs6_lse m c
  generalize Run.outs m = outs at h0 h1 ⊢
  rw [Host.V9_v25]
  refine congrArg (fun s => Ideal.div (0 + s) _) (Finset.sum_congr rfl fun i _ => ?_)
  have h0' : Host.logitsK outs c = fun j : S4096x32000.Idx => LK m c (j 0) (j 1) := h0
  have h1' : Host.lseK outs c = fun j : S4096x1.Idx => Cert.Spec.lseOnline (LK m c) (j 0) := h1
  rw [h0', h1', gidxK_eq]

end Cert.KernelIdeal.Value

end
-- ==== Proof.Bridge.lean ====
import proofs.«419445_j27642409517469_3_alg».proof.Proof.KI.HostFinite
import proofs.«419445_j27642409517469_3_alg».proof.Proof.Math.Compose
import proofs.«419445_j27642409517469_3_alg».proof.Proof.PreFinite
import proofs.«419445_j27642409517469_3_alg».proof.Proof.Cross
import proofs.«419445_j27642409517469_3_alg».proof.Proof.KI.Value2

noncomputable section

namespace Cert.Bridge

open Idealize.ShloMosaic Idealize.ShloMosaic.ValueIdx Idealize.ShloMosaic.TcCoe
open Cert.ReferenceIdeal.RefValue Cert.ReferenceIdeal.ReadP Cert.Spec Cert.Cross Cert.KernelIdeal

-- On finite inputs that agree, the reference's logits and loss are the kernel program's: over the same embedded tokens, the online softmax and log-sum-exp equal the two-pass ones.
theorem results_agree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hpre : Cert.Pre_finite_inputs.fn (F := Ideal) (cont m c main_arg0) (cont m c main_arg1) (cont m c main_arg2) (cont m c main_arg3)
        (cont m c main_arg4) (cont m c main_arg5) (cont m c main_arg6) (cont m c main_arg7) = fun _ => 1#1)
    (hagree : cont m' c Cert.ReferenceIdeal.main_arg0 = cont m c main_arg0
      ∧ cont m' c Cert.ReferenceIdeal.main_arg1 = cont m c main_arg1
      ∧ cont m' c Cert.ReferenceIdeal.main_arg2 = cont m c main_arg2
      ∧ cont m' c Cert.ReferenceIdeal.main_arg3 = cont m c main_arg3
      ∧ cont m' c Cert.ReferenceIdeal.main_arg4 = cont m c main_arg4
      ∧ cont m' c Cert.ReferenceIdeal.main_arg5 = cont m c main_arg5
      ∧ cont m' c Cert.ReferenceIdeal.main_arg6 = cont m c main_arg6
      ∧ cont m' c Cert.ReferenceIdeal.main_arg7 = cont m c main_arg7) :
    val_main_v32 (F := Ideal) (cont m' c Cert.ReferenceIdeal.main_arg0) (cont m' c Cert.ReferenceIdeal.main_arg2) (cont m' c Cert.ReferenceIdeal.main_arg3)
        (cont m' c Cert.ReferenceIdeal.main_arg4) (cont m' c Cert.ReferenceIdeal.main_arg5) (cont m' c Cert.ReferenceIdeal.main_arg7) = Gen.V9 m (Run.outs m) c main_v20_0
    ∧ val_main_v39 (F := Ideal) (cont m' c Cert.ReferenceIdeal.main_arg0) (cont m' c Cert.ReferenceIdeal.main_arg1) (cont m' c Cert.ReferenceIdeal.main_arg2) (cont m' c Cert.ReferenceIdeal.main_arg3)
        (cont m' c Cert.ReferenceIdeal.main_arg4) (cont m' c Cert.ReferenceIdeal.main_arg5) (cont m' c Cert.ReferenceIdeal.main_arg7) = Gen.V9 m (Run.outs m) c main_v25 := by
  obtain ⟨a0, a1, a2, a3, a4, a5, _, a7⟩ := hagree
  rw [a0, a1, a2, a3, a4, a5, a7]
  obtain ⟨f2, f3, f4, f5, _, f7⟩ := Cert.PreFinite.finite_of_pre _ _ _ _ _ _ _ _ hpre
  have hx := fun b t d => Host.xK_finite m c f2 f3 (ix3 b t d)
  have hk := fun d e => f4 (ix2 d e)
  have hq := fun d e => f5 (ix2 d e)
  refine ⟨funext fun j => ?_, funext fun j => ?_⟩
  · rw [Value.kernel_logits, ref_logits]
    exact (logitsK_eq_logitsR _ _ _ _ hx hk hq _ _).symm
  · rw [eq_ix0 j, Value.kernel_loss, ref_loss]
    refine Eq.trans ?_ (lossK_eq_lossR _ _ _ _ hx hk hq (fun d u => f7 (ix2 d u)) (fun i : S4096x1.Idx => i 0)
      (Host.okK m c) (Value.colK m c)).symm
    refine congrArg (fun s => - Ideal.div (0 + s) _) (Finset.sum_congr rfl fun i _ => ?_)
    exact if_congr (okK_iff_okR m c i).symm (congrArg _ (colR_eq m c i)) rfl

end Cert.Bridge

end
-- ==== Proof.Claims.lean ====
import proofs.«419445_j27642409517469_3_alg».proof.Defs
import proofs.«419445_j27642409517469_3_alg».proof.Proof.K.Run
import proofs.«419445_j27642409517469_3_alg».proof.Proof.KI.Run
import proofs.«419445_j27642409517469_3_alg».proof.Proof.RefRun
import proofs.«419445_j27642409517469_3_alg».proof.Proof.Bridge

noncomputable section

open Idealize.ShloMosaic Idealize.ShloMosaic.TcCoe Idealize.SL.Sem

namespace Cert.Proof.Claims

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2.2) (Cert.ReferenceIdeal.RefRun.run_vals (F := Ideal) m ρ)

-- The table gives the finite stand-in for minus infinity that value; the claim asks for this fact three times.
theorem preserves : Cert.preserves_Kernel_KernelIdeal :=
  have h := IdealRules.named_const.statement Cert.KernelIdeal.κ "neg_big" .f32 0xFF333332#32 ⊥ rfl
  ⟨h, h, h⟩

theorem algebraic : Cert.algebraic_KernelIdeal_ReferenceIdeal := by
  intro m ρ m' ρ' hpre hagree
  refine ⟨fun c => Cert.KernelIdeal.Gen.V9 m (Cert.KernelIdeal.Run.outs m) c Cert.KernelIdeal.main_v20_0,
    fun c => Cert.KernelIdeal.Gen.V9 m (Cert.KernelIdeal.Run.outs m) c Cert.KernelIdeal.main_v25,
    Cert.KernelIdeal.Run.run_values m ρ, ?_⟩
  refine (θ_run Cert.ReferenceIdeal.defs _ _).mono (fun r h c => ?_) (Cert.ReferenceIdeal.RefRun.run_vals (F := Ideal) m' ρ')
  obtain ⟨h32, h39, hargs⟩ := h c
  obtain ⟨e32, e39⟩ := Cert.Bridge.results_agree m m' c (hpre c) (hagree c)
  exact ⟨h32.trans e32, h39.trans e39, hargs⟩

end Cert.Proof.Claims

end
-- ==== Proof.lean ====
import proofs.«419445_j27642409517469_3_alg».proof.Defs
import proofs.«419445_j27642409517469_3_alg».proof.Proof.Gen.Kernel
import proofs.«419445_j27642409517469_3_alg».proof.Proof.Gen.KernelIdeal
import proofs.«419445_j27642409517469_3_alg».proof.Proof.Gen.ReferenceIdeal
import proofs.«419445_j27642409517469_3_alg».proof.Proof.Gen.Pre_finite_inputs
import proofs.«419445_j27642409517469_3_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
